-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x3x2048 : Shape := ⟨3, ![16, 3, 2048]⟩
abbrev S32x1024 : Shape := ⟨2, ![32, 1024]⟩
abbrev S32x2048 : Shape := ⟨2, ![32, 2048]⟩
abbrev S3x2048 : Shape := ⟨2, ![3, 2048]⟩
abbrev S2048 : Shape := ⟨1, ![2048]⟩
abbrev S1024 : Shape := ⟨1, ![1024]⟩
abbrev S16x16 : Shape := ⟨2, ![16, 16]⟩
abbrev S_ : Shape := ⟨0, ![]⟩
abbrev S1x3x2048 : Shape := ⟨3, ![1, 3, 2048]⟩
abbrev S16 : Shape := ⟨1, ![16]⟩
abbrev S1x16 : Shape := ⟨2, ![1, 16]⟩
abbrev S1 : Shape := ⟨1, ![1]⟩
abbrev S1x1024 : Shape := ⟨2, ![1, 1024]⟩
abbrev S1x2048 : Shape := ⟨2, ![1, 2048]⟩
abbrev S16x2048 : Shape := ⟨2, ![16, 2048]⟩
abbrev S16x2x2048 : Shape := ⟨3, ![16, 2, 2048]⟩

abbrev nBuf : Table → Nat
  | .hbm => 19
  | .local .scVector .vmem => 5
  | _ => 0

abbrev bufTy : (tb : Table) → Fin (nBuf tb) → BufTy
  | .hbm, ⟨0, _⟩ => ⟨S16x2048x3, .f32⟩
  | .hbm, ⟨1, _⟩ => ⟨S16x2048x3, .f32⟩
  | .hbm, ⟨2, _⟩ => ⟨S16x3x2048, .f32⟩
  | .hbm, ⟨3, _⟩ => ⟨S16x3x2048, .f32⟩
  | .hbm, ⟨4, _⟩ => ⟨S32x1024, .f32⟩
  | .hbm, ⟨5, _⟩ => ⟨S32x2048, .f32⟩
  | .hbm, ⟨6, _⟩ => ⟨S16x2048, .f32⟩
  | .hbm, ⟨7, _⟩ => ⟨S16x2x2048, .f32⟩
  | .hbm, ⟨8, _⟩ => ⟨S_, .f32⟩
  | .hbm, ⟨9, _⟩ => ⟨S16x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local .scVector .vmem, ⟨0, _⟩ => ⟨S3x2048, .f32⟩
  | .local .scVector .vmem, ⟨1, _⟩ => ⟨S3x2048, .f32⟩
  | .local .scVector .vmem, ⟨2, _⟩ => ⟨S2048, .f32⟩
  | .local .scVector .vmem, ⟨3, _⟩ => ⟨S1024, .f32⟩
  | .local .scVector .vmem, ⟨4, _⟩ => ⟨S16x16, .f32⟩
  | _, _ => ⟨S16x2048x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_19_r0 : BitVec 32 := 0#32
  let c0_i32_20_r0 : BitVec 32 := 0#32
  ![v18.toNat, 0, 0]
@[reducible] def k0_t1_loop : Scf.Loop 32 :=
  let c0_i32_12 : BitVec 32 := 0#32
  let c128_i32 : BitVec 32 := 128#32
  let v30 : BitVec 32 := Scalar.addi c0_i32_12 c128_i32
  let c1_i32_13 : BitVec 32 := 1#32
  ⟨c0_i32_12, v30, c1_i32_13⟩
def k0_off2 (k0_t1 : Fin k0_t1_loop.trips) : Fin 1 → Nat :=
  let c0_i32_12 : BitVec 32 := 0#32
  let c1_i32_13 : BitVec 32 := 1#32
  let arg11 : BitVec 32 := Scf.iv c0_i32_12 c1_i32_13 k0_t1
  let c16_i32 : BitVec 32 := 16#32
  let v36 : BitVec 32 := Scalar.muli arg11 c16_i32
  let v37 : Index := Scalar.indexCast v36
  ![v37.toNat]
@[reducible] def k0_t2_loop : Scf.Loop 32 :=
  let c0_i32_16 : BitVec 32 := 0#32
  let c64_i32 : BitVec 32 := 64#32
  let v34 : BitVec 32 := Scalar.addi c0_i32_16 c64_i32
  let c1_i32_17 : BitVec 32 := 1#32
  ⟨c0_i32_16, v34, c1_i32_17⟩
def k0_off3 (i : grid0.Coords) (k0_t2 : Fin k0_t2_loop.trips) : Fin 2 → Nat :=
  let c0_i32_19 : BitVec 32 := 0#32
  let v38 : Index := Scalar.indexCast c0_i32_19
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v32 : BitVec 32 := Scalar.muli v28 c1024_i32
  let c0_i32_16 : BitVec 32 := 0#32
  let c1_i32_17 : BitVec 32 := 1#32
  let arg11 : BitVec 32 := Scf.iv c0_i32_16 c1_i32_17 k0_t2
  let c16_i32 : BitVec 32 := 16#32
  let v36 : BitVec 32 := Scalar.muli arg11 c16_i32
  let v37 : BitVec 32 := Scalar.addi v32 v36
  let v39 : Index := Scalar.indexCast v37
  ![0, v39.toNat]
def k0_off4 (i : grid0.Coords) (k0_t2 : Fin k0_t2_loop.trips) : Fin 2 → Nat :=
  let c1_i32_20 : BitVec 32 := 1#32
  let v41 : Index := Scalar.indexCast c1_i32_20
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v32 : BitVec 32 := Scalar.muli v28 c1024_i32
  let c0_i32_16 : BitVec 32 := 0#32
  let c1_i32_17 : BitVec 32 := 1#32
  let arg11 : BitVec 32 := Scf.iv c0_i32_16 c1_i32_17 k0_t2
  let c16_i32 : BitVec 32 := 16#32
  let v36 : BitVec 32 := Scalar.muli arg11 c16_i32
  let v37 : BitVec 32 := Scalar.addi v32 v36
  let v42 : Index := Scalar.indexCast v37
  ![1, v42.toNat]
def k0_off5 (i : grid0.Coords) (k0_t2 : Fin k0_t2_loop.trips) : Fin 2 → Nat :=
  let c2_i32_21 : BitVec 32 := 2#32
  let v44 : Index := Scalar.indexCast c2_i32_21
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v32 : BitVec 32 := Scalar.muli v28 c1024_i32
  let c0_i32_16 : BitVec 32 := 0#32
  let c1_i32_17 : BitVec 32 := 1#32
  let arg11 : BitVec 32 := Scf.iv c0_i32_16 c1_i32_17 k0_t2
  let c16_i32 : BitVec 32 := 16#32
  let v36 : BitVec 32 := Scalar.muli arg11 c16_i32
  let v37 : BitVec 32 := Scalar.addi v32 v36
  let v45 : Index := Scalar.indexCast v37
  ![2, v45.toNat]
@[reducible] def k0_t3_loop : Scf.Loop 32 :=
  let c0_i32_22 : BitVec 32 := 0#32
  let c128_i32_23 : BitVec 32 := 128#32
  let v119 : BitVec 32 := Scalar.addi c0_i32_22 c128_i32_23
  let c1_i32_24 : BitVec 32 := 1#32
  ⟨c0_i32_22, v119, c1_i32_24⟩
def k0_off6 (k0_t3 : Fin k0_t3_loop.trips) : Fin 2 → Nat :=
  let c0_i32_67 : BitVec 32 := 0#32
  let v278 : Index := Scalar.indexCast c0_i32_67
  let c0_i32_22 : BitVec 32 := 0#32
  let c1_i32_24 : BitVec 32 := 1#32
  let arg13 : BitVec 32 := Scf.iv c0_i32_22 c1_i32_24 k0_t3
  let c16_i32_66 : BitVec 32 := 16#32
  let v277 : BitVec 32 := Scalar.muli arg13 c16_i32_66
  let v279 : Index := Scalar.indexCast v277
  ![0, v279.toNat]
def k0_off7 (k0_t3 : Fin k0_t3_loop.trips) : Fin 2 → Nat :=
  let c1_i32_69 : BitVec 32 := 1#32
  let v282 : Index := Scalar.indexCast c1_i32_69
  let c0_i32_22 : BitVec 32 := 0#32
  let c1_i32_24 : BitVec 32 := 1#32
  let arg13 : BitVec 32 := Scf.iv c0_i32_22 c1_i32_24 k0_t3
  let c16_i32_68 : BitVec 32 := 16#32
  let v281 : BitVec 32 := Scalar.muli arg13 c16_i32_68
  let v283 : Index := Scalar.indexCast v281
  ![1, v283.toNat]
def k0_off8 (k0_t3 : Fin k0_t3_loop.trips) : Fin 2 → Nat :=
  let c2_i32_71 : BitVec 32 := 2#32
  let v286 : Index := Scalar.indexCast c2_i32_71
  let c0_i32_22 : BitVec 32 := 0#32
  let c1_i32_24 : BitVec 32 := 1#32
  let arg13 : BitVec 32 := Scf.iv c0_i32_22 c1_i32_24 k0_t3
  let c16_i32_70 : BitVec 32 := 16#32
  let v285 : BitVec 32 := Scalar.muli arg13 c16_i32_70
  let v287 : Index := Scalar.indexCast v285
  ![2, v287.toNat]
def k0_off9 (k0_t3 : Fin k0_t3_loop.trips) : Fin 1 → Nat :=
  let c0_i32_22 : BitVec 32 := 0#32
  let c1_i32_24 : BitVec 32 := 1#32
  let arg13 : BitVec 32 := Scf.iv c0_i32_22 c1_i32_24 k0_t3
  let c16_i32_72 : BitVec 32 := 16#32
  let v289 : BitVec 32 := Scalar.muli arg13 c16_i32_72
  let v290 : Index := Scalar.indexCast v289
  ![v290.toNat]
@[reducible] def k0_t4_loop : Scf.Loop 32 :=
  let c0_i32_36 : BitVec 32 := 0#32
  let c128_i32_37 : BitVec 32 := 128#32
  let v209 : BitVec 32 := Scalar.addi c0_i32_36 c128_i32_37
  let c1_i32_38 : BitVec 32 := 1#32
  ⟨c0_i32_36, v209, c1_i32_38⟩
def k0_off10 (k0_t4 : Fin k0_t4_loop.trips) : Fin 2 → Nat :=
  let c0_i32_67 : BitVec 32 := 0#32
  let v278 : Index := Scalar.indexCast c0_i32_67
  let c0_i32_36 : BitVec 32 := 0#32
  let c1_i32_38 : BitVec 32 := 1#32
  let arg13 : BitVec 32 := Scf.iv c0_i32_36 c1_i32_38 k0_t4
  let c16_i32_66 : BitVec 32 := 16#32
  let v277 : BitVec 32 := Scalar.muli arg13 c16_i32_66
  let v279 : Index := Scalar.indexCast v277
  ![0, v279.toNat]
def k0_off11 (k0_t4 : Fin k0_t4_loop.trips) : Fin 2 → Nat :=
  let c1_i32_69 : BitVec 32 := 1#32
  let v282 : Index := Scalar.indexCast c1_i32_69
  let c0_i32_36 : BitVec 32 := 0#32
  let c1_i32_38 : BitVec 32 := 1#32
  let arg13 : BitVec 32 := Scf.iv c0_i32_36 c1_i32_38 k0_t4
  let c16_i32_68 : BitVec 32 := 16#32
  let v281 : BitVec 32 := Scalar.muli arg13 c16_i32_68
  let v283 : Index := Scalar.indexCast v281
  ![1, v283.toNat]
def k0_off12 (k0_t4 : Fin k0_t4_loop.trips) : Fin 2 → Nat :=
  let c2_i32_71 : BitVec 32 := 2#32
  let v286 : Index := Scalar.indexCast c2_i32_71
  let c0_i32_36 : BitVec 32 := 0#32
  let c1_i32_38 : BitVec 32 := 1#32
  let arg13 : BitVec 32 := Scf.iv c0_i32_36 c1_i32_38 k0_t4
  let c16_i32_70 : BitVec 32 := 16#32
  let v285 : BitVec 32 := Scalar.muli arg13 c16_i32_70
  let v287 : Index := Scalar.indexCast v285
  ![2, v287.toNat]
def k0_off13 (k0_t4 : Fin k0_t4_loop.trips) : Fin 1 → Nat :=
  let c0_i32_36 : BitVec 32 := 0#32
  let c1_i32_38 : BitVec 32 := 1#32
  let arg13 : BitVec 32 := Scf.iv c0_i32_36 c1_i32_38 k0_t4
  let c16_i32_72 : BitVec 32 := 16#32
  let v289 : BitVec 32 := Scalar.muli arg13 c16_i32_72
  let v290 : Index := Scalar.indexCast v289
  ![v290.toNat]

def k0_chk1 (v33 : IVec S16 32) (v227 : IVec S16 32) : Prop :=
  (∀ a x, ((![v33, v227] : Fin 2 → IVec S16 32) a x).toNat < S16x16.size a)
instance k0_chk1.dec : ∀ (v33 : IVec S16 32) (v227 : IVec S16 32), Decidable (k0_chk1 v33 v227) := fun v33 v227 => decidable_of_iff' _ (Iff.of_eq (k0_chk1.eq_1 v33 v227))
theorem k0_idx1_inb : ∀ (v33 : IVec S16 32) (v227 : IVec S16 32) (k0_hw1 : k0_chk1 v33 v227), ∀ a x, ((![v33, v227] : Fin 2 → IVec S16 32) a x).toNat < S16x16.size a := fun v33 v227 k0_hw1 => k0_hw1

def k0_chk2 (v33 : IVec S16 32) (v229 : IVec S16 32) : Prop :=
  (∀ a x, ((![v33, v229] : Fin 2 → IVec S16 32) a x).toNat < S16x16.size a)
instance k0_chk2.dec : ∀ (v33 : IVec S16 32) (v229 : IVec S16 32), Decidable (k0_chk2 v33 v229) := fun v33 v229 => decidable_of_iff' _ (Iff.of_eq (k0_chk2.eq_1 v33 v229))
theorem k0_idx2_inb : ∀ (v33 : IVec S16 32) (v229 : IVec S16 32) (k0_hw2 : k0_chk2 v33 v229), ∀ a x, ((![v33, v229] : Fin 2 → IVec S16 32) a x).toNat < S16x16.size a := fun v33 v229 k0_hw2 => k0_hw2

def k0_chk3 (v33 : IVec S16 32) (v231 : IVec S16 32) : Prop :=
  (∀ a x, ((![v33, v231] : Fin 2 → IVec S16 32) a x).toNat < S16x16.size a)
instance k0_chk3.dec : ∀ (v33 : IVec S16 32) (v231 : IVec S16 32), Decidable (k0_chk3 v33 v231) := fun v33 v231 => decidable_of_iff' _ (Iff.of_eq (k0_chk3.eq_1 v33 v231))
theorem k0_idx3_inb : ∀ (v33 : IVec S16 32) (v231 : IVec S16 32) (k0_hw3 : k0_chk3 v33 v231), ∀ a x, ((![v33, v231] : Fin 2 → IVec S16 32) a x).toNat < S16x16.size a := fun v33 v231 k0_hw3 => k0_hw3

def k0_chk4 (v33 : IVec S16 32) (v233 : IVec S16 32) : Prop :=
  (∀ a x, ((![v33, v233] : Fin 2 → IVec S16 32) a x).toNat < S16x16.size a)
instance k0_chk4.dec : ∀ (v33 : IVec S16 32) (v233 : IVec S16 32), Decidable (k0_chk4 v33 v233) := fun v33 v233 => decidable_of_iff' _ (Iff.of_eq (k0_chk4.eq_1 v33 v233))
theorem k0_idx4_inb : ∀ (v33 : IVec S16 32) (v233 : IVec S16 32) (k0_hw4 : k0_chk4 v33 v233), ∀ a x, ((![v33, v233] : Fin 2 → IVec S16 32) a x).toNat < S16x16.size a := fun v33 v233 k0_hw4 => k0_hw4

def k0_chk5 (v33 : IVec S16 32) (v235 : IVec S16 32) : Prop :=
  (∀ a x, ((![v33, v235] : Fin 2 → IVec S16 32) a x).toNat < S16x16.size a)
instance k0_chk5.dec : ∀ (v33 : IVec S16 32) (v235 : IVec S16 32), Decidable (k0_chk5 v33 v235) := fun v33 v235 => decidable_of_iff' _ (Iff.of_eq (k0_chk5.eq_1 v33 v235))
theorem k0_idx5_inb : ∀ (v33 : IVec S16 32) (v235 : IVec S16 32) (k0_hw5 : k0_chk5 v33 v235), ∀ a x, ((![v33, v235] : Fin 2 → IVec S16 32) a x).toNat < S16x16.size a := fun v33 v235 k0_hw5 => k0_hw5

def k0_chk6 (v33 : IVec S16 32) (v237 : IVec S16 32) : Prop :=
  (∀ a x, ((![v33, v237] : Fin 2 → IVec S16 32) a x).toNat < S16x16.size a)
instance k0_chk6.dec : ∀ (v33 : IVec S16 32) (v237 : IVec S16 32), Decidable (k0_chk6 v33 v237) := fun v33 v237 => decidable_of_iff' _ (Iff.of_eq (k0_chk6.eq_1 v33 v237))
theorem k0_idx6_inb : ∀ (v33 : IVec S16 32) (v237 : IVec S16 32) (k0_hw6 : k0_chk6 v33 v237), ∀ a x, ((![v33, v237] : Fin 2 → IVec S16 32) a x).toNat < S16x16.size a := fun v33 v237 k0_hw6 => k0_hw6

def k0_chk7 (v33 : IVec S16 32) (v239 : IVec S16 32) : Prop :=
  (∀ a x, ((![v33, v239] : Fin 2 → IVec S16 32) a x).toNat < S16x16.size a)
instance k0_chk7.dec : ∀ (v33 : IVec S16 32) (v239 : IVec S16 32), Decidable (k0_chk7 v33 v239) := fun v33 v239 => decidable_of_iff' _ (Iff.of_eq (k0_chk7.eq_1 v33 v239))
theorem k0_idx7_inb : ∀ (v33 : IVec S16 32) (v239 : IVec S16 32) (k0_hw7 : k0_chk7 v33 v239), ∀ a x, ((![v33, v239] : Fin 2 → IVec S16 32) a x).toNat < S16x16.size a := fun v33 v239 k0_hw7 => k0_hw7

def k0_chk8 (v33 : IVec S16 32) (v241 : IVec S16 32) : Prop :=
  (∀ a x, ((![v33, v241] : Fin 2 → IVec S16 32) a x).toNat < S16x16.size a)
instance k0_chk8.dec : ∀ (v33 : IVec S16 32) (v241 : IVec S16 32), Decidable (k0_chk8 v33 v241) := fun v33 v241 => decidable_of_iff' _ (Iff.of_eq (k0_chk8.eq_1 v33 v241))
theorem k0_idx8_inb : ∀ (v33 : IVec S16 32) (v241 : IVec S16 32) (k0_hw8 : k0_chk8 v33 v241), ∀ a x, ((![v33, v241] : Fin 2 → IVec S16 32) a x).toNat < S16x16.size a := fun v33 v241 k0_hw8 => k0_hw8

def k0_chk9 (v33 : IVec S16 32) (v243 : IVec S16 32) : Prop :=
  (∀ a x, ((![v33, v243] : Fin 2 → IVec S16 32) a x).toNat < S16x16.size a)
instance k0_chk9.dec : ∀ (v33 : IVec S16 32) (v243 : IVec S16 32), Decidable (k0_chk9 v33 v243) := fun v33 v243 => decidable_of_iff' _ (Iff.of_eq (k0_chk9.eq_1 v33 v243))
theorem k0_idx9_inb : ∀ (v33 : IVec S16 32) (v243 : IVec S16 32) (k0_hw9 : k0_chk9 v33 v243), ∀ a x, ((![v33, v243] : Fin 2 → IVec S16 32) a x).toNat < S16x16.size a := fun v33 v243 k0_hw9 => k0_hw9

def k0_chk10 (v33 : IVec S16 32) (v245 : IVec S16 32) : Prop :=
  (∀ a x, ((![v33, v245] : Fin 2 → IVec S16 32) a x).toNat < S16x16.size a)
instance k0_chk10.dec : ∀ (v33 : IVec S16 32) (v245 : IVec S16 32), Decidable (k0_chk10 v33 v245) := fun v33 v245 => decidable_of_iff' _ (Iff.of_eq (k0_chk10.eq_1 v33 v245))
theorem k0_idx10_inb : ∀ (v33 : IVec S16 32) (v245 : IVec S16 32) (k0_hw10 : k0_chk10 v33 v245), ∀ a x, ((![v33, v245] : Fin 2 → IVec S16 32) a x).toNat < S16x16.size a := fun v33 v245 k0_hw10 => k0_hw10

def k0_chk11 (v33 : IVec S16 32) (v247 : IVec S16 32) : Prop :=
  (∀ a x, ((![v33, v247] : Fin 2 → IVec S16 32) a x).toNat < S16x16.size a)
instance k0_chk11.dec : ∀ (v33 : IVec S16 32) (v247 : IVec S16 32), Decidable (k0_chk11 v33 v247) := fun v33 v247 => decidable_of_iff' _ (Iff.of_eq (k0_chk11.eq_1 v33 v247))
theorem k0_idx11_inb : ∀ (v33 : IVec S16 32) (v247 : IVec S16 32) (k0_hw11 : k0_chk11 v33 v247), ∀ a x, ((![v33, v247] : Fin 2 → IVec S16 32) a x).toNat < S16x16.size a := fun v33 v247 k0_hw11 => k0_hw11

def k0_chk12 (v33 : IVec S16 32) (v249 : IVec S16 32) : Prop :=
  (∀ a x, ((![v33, v249] : Fin 2 → IVec S16 32) a x).toNat < S16x16.size a)
instance k0_chk12.dec : ∀ (v33 : IVec S16 32) (v249 : IVec S16 32), Decidable (k0_chk12 v33 v249) := fun v33 v249 => decidable_of_iff' _ (Iff.of_eq (k0_chk12.eq_1 v33 v249))
theorem k0_idx12_inb : ∀ (v33 : IVec S16 32) (v249 : IVec S16 32) (k0_hw12 : k0_chk12 v33 v249), ∀ a x, ((![v33, v249] : Fin 2 → IVec S16 32) a x).toNat < S16x16.size a := fun v33 v249 k0_hw12 => k0_hw12

def k0_chk13 (v33 : IVec S16 32) (v251 : IVec S16 32) : Prop :=
  (∀ a x, ((![v33, v251] : Fin 2 → IVec S16 32) a x).toNat < S16x16.size a)
instance k0_chk13.dec : ∀ (v33 : IVec S16 32) (v251 : IVec S16 32), Decidable (k0_chk13 v33 v251) := fun v33 v251 => decidable_of_iff' _ (Iff.of_eq (k0_chk13.eq_1 v33 v251))
theorem k0_idx13_inb : ∀ (v33 : IVec S16 32) (v251 : IVec S16 32) (k0_hw13 : k0_chk13 v33 v251), ∀ a x, ((![v33, v251] : Fin 2 → IVec S16 32) a x).toNat < S16x16.size a := fun v33 v251 k0_hw13 => k0_hw13

def k0_chk14 (v33 : IVec S16 32) (v253 : IVec S16 32) : Prop :=
  (∀ a x, ((![v33, v253] : Fin 2 → IVec S16 32) a x).toNat < S16x16.size a)
instance k0_chk14.dec : ∀ (v33 : IVec S16 32) (v253 : IVec S16 32), Decidable (k0_chk14 v33 v253) := fun v33 v253 => decidable_of_iff' _ (Iff.of_eq (k0_chk14.eq_1 v33 v253))
theorem k0_idx14_inb : ∀ (v33 : IVec S16 32) (v253 : IVec S16 32) (k0_hw14 : k0_chk14 v33 v253), ∀ a x, ((![v33, v253] : Fin 2 → IVec S16 32) a x).toNat < S16x16.size a := fun v33 v253 k0_hw14 => k0_hw14

def k0_chk15 (v33 : IVec S16 32) (v255 : IVec S16 32) : Prop :=
  (∀ a x, ((![v33, v255] : Fin 2 → IVec S16 32) a x).toNat < S16x16.size a)
instance k0_chk15.dec : ∀ (v33 : IVec S16 32) (v255 : IVec S16 32), Decidable (k0_chk15 v33 v255) := fun v33 v255 => decidable_of_iff' _ (Iff.of_eq (k0_chk15.eq_1 v33 v255))
theorem k0_idx15_inb : ∀ (v33 : IVec S16 32) (v255 : IVec S16 32) (k0_hw15 : k0_chk15 v33 v255), ∀ a x, ((![v33, v255] : Fin 2 → IVec S16 32) a x).toNat < S16x16.size a := fun v33 v255 k0_hw15 => k0_hw15

def k0_chk16 (v33 : IVec S16 32) (v257 : IVec S16 32) : Prop :=
  (∀ a x, ((![v33, v257] : Fin 2 → IVec S16 32) a x).toNat < S16x16.size a)
instance k0_chk16.dec : ∀ (v33 : IVec S16 32) (v257 : IVec S16 32), Decidable (k0_chk16 v33 v257) := fun v33 v257 => decidable_of_iff' _ (Iff.of_eq (k0_chk16.eq_1 v33 v257))
theorem k0_idx16_inb : ∀ (v33 : IVec S16 32) (v257 : IVec S16 32) (k0_hw16 : k0_chk16 v33 v257), ∀ a x, ((![v33, v257] : Fin 2 → IVec S16 32) a x).toNat < S16x16.size a := fun v33 v257 k0_hw16 => k0_hw16
def k0_off14 (k0_t2 : Fin k0_t2_loop.trips) : Fin 1 → Nat :=
  let c0_i32_16 : BitVec 32 := 0#32
  let c1_i32_17 : BitVec 32 := 1#32
  let arg11 : BitVec 32 := Scf.iv c0_i32_16 c1_i32_17 k0_t2
  let c16_i32_64 : BitVec 32 := 16#32
  let v274 : BitVec 32 := Scalar.muli arg11 c16_i32_64
  let v275 : Index := Scalar.indexCast v274
  ![v275.toNat]
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r2 : BitVec 32 := 0#32
  ![v1.toNat, 0]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_19_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16x2048x3_S16x3x2048_0_2_1 : S16x2048x3.Transposes [0, 2, 1] S16x3x2048
  squeezes_S1x3x2048_S3x2048 : S1x3x2048.Squeezes S3x2048
  h_S16 : 0 < S16.numel
  iota_S16_d0_w32_scVector : S16.Iotas .scVector 32 [0]
  h_S1x16 : 0 < S1x16.numel
  shapeCasts_S1x16_S16 : S1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  inb_S16x16_S1x16_0_0 : ∀ a, (![0, 0] : Fin 2 → Nat) a + S1x16.size a ≤ S16x16.size a
  shapeCasts_S16_S1x16 : S16.ShapeCasts S1x16
  inb_S16x16_S1x16_1_0 : ∀ a, (![1, 0] : Fin 2 → Nat) a + S1x16.size a ≤ S16x16.size a
  inb_S16x16_S1x16_2_0 : ∀ a, (![2, 0] : Fin 2 → Nat) a + S1x16.size a ≤ S16x16.size a
  inb_S16x16_S1x16_3_0 : ∀ a, (![3, 0] : Fin 2 → Nat) a + S1x16.size a ≤ S16x16.size a
  inb_S16x16_S1x16_4_0 : ∀ a, (![4, 0] : Fin 2 → Nat) a + S1x16.size a ≤ S16x16.size a
  inb_S16x16_S1x16_5_0 : ∀ a, (![5, 0] : Fin 2 → Nat) a + S1x16.size a ≤ S16x16.size a
  inb_S16x16_S1x16_6_0 : ∀ a, (![6, 0] : Fin 2 → Nat) a + S1x16.size a ≤ S16x16.size a
  inb_S16x16_S1x16_7_0 : ∀ a, (![7, 0] : Fin 2 → Nat) a + S1x16.size a ≤ S16x16.size a
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16x16_S1x16_8_0 : ∀ a, (![8, 0] : Fin 2 → Nat) a + S1x16.size a ≤ S16x16.size a
  inb_S16x16_S1x16_9_0 : ∀ a, (![9, 0] : Fin 2 → Nat) a + S1x16.size a ≤ S16x16.size a
  inb_S16x16_S1x16_10_0 : ∀ a, (![10, 0] : Fin 2 → Nat) a + S1x16.size a ≤ S16x16.size a
  inb_S16x16_S1x16_11_0 : ∀ a, (![11, 0] : Fin 2 → Nat) a + S1x16.size a ≤ S16x16.size a
  inb_S16x16_S1x16_12_0 : ∀ a, (![12, 0] : Fin 2 → Nat) a + S1x16.size a ≤ S16x16.size a
  inb_S16x16_S1x16_13_0 : ∀ a, (![13, 0] : Fin 2 → Nat) a + S1x16.size a ≤ S16x16.size a
  inb_S16x16_S1x16_14_0 : ∀ a, (![14, 0] : Fin 2 → Nat) a + S1x16.size a ≤ S16x16.size a
  inb_S16x16_S1x16_15_0 : ∀ a, (![15, 0] : Fin 2 → Nat) a + S1x16.size a ≤ S16x16.size a
  h_S16x16 : 0 < S16x16.numel
  squeezes_S1x1024_S1024 : S1x1024.Squeezes S1024
  squeezes_S1x2048_S2048 : S1x2048.Squeezes S2048
  shapeCasts_S32x1024_S16x2048 : S32x1024.ShapeCasts S16x2048
  shapeCasts_S32x2048_S16x2x2048 : S32x2048.ShapeCasts S16x2x2048
  reducesTo_S16x2x2048_S16x2048_d1 : S16x2x2048.ReducesTo [1] S16x2048
  h_S_ : 0 < S_.numel
  reducesTo_S16x2048_S_d0_1 : S16x2048.ReducesTo [0, 1] S_
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x3x2048.size a ≤ S16x3x2048.size a
  k0_t1_ok : k0_t1_loop.OK
  k0_off2_inb : ∀ k0_t1 : Fin k0_t1_loop.trips, ∀ a, (k0_off2 k0_t1) a + S16.size a ≤ S2048.size a
  k0_t2_ok : k0_t2_loop.OK
  k0_off3_inb : ∀ (i : grid0.Coords) (k0_t2 : Fin k0_t2_loop.trips), ∀ a, (k0_off3 i k0_t2) a + S1x16.size a ≤ S3x2048.size a
  k0_off4_inb : ∀ (i : grid0.Coords) (k0_t2 : Fin k0_t2_loop.trips), ∀ a, (k0_off4 i k0_t2) a + S1x16.size a ≤ S3x2048.size a
  k0_off5_inb : ∀ (i : grid0.Coords) (k0_t2 : Fin k0_t2_loop.trips), ∀ a, (k0_off5 i k0_t2) a + S1x16.size a ≤ S3x2048.size a
  k0_t3_ok : k0_t3_loop.OK
  k0_off6_inb : ∀ k0_t3 : Fin k0_t3_loop.trips, ∀ a, (k0_off6 k0_t3) a + S1x16.size a ≤ S3x2048.size a
  k0_off7_inb : ∀ k0_t3 : Fin k0_t3_loop.trips, ∀ a, (k0_off7 k0_t3) a + S1x16.size a ≤ S3x2048.size a
  k0_off8_inb : ∀ k0_t3 : Fin k0_t3_loop.trips, ∀ a, (k0_off8 k0_t3) a + S1x16.size a ≤ S3x2048.size a
  k0_off9_inb : ∀ k0_t3 : Fin k0_t3_loop.trips, ∀ a, (k0_off9 k0_t3) a + S16.size a ≤ S2048.size a
  k0_t4_ok : k0_t4_loop.OK
  k0_off10_inb : ∀ k0_t4 : Fin k0_t4_loop.trips, ∀ a, (k0_off10 k0_t4) a + S1x16.size a ≤ S3x2048.size a
  k0_off11_inb : ∀ k0_t4 : Fin k0_t4_loop.trips, ∀ a, (k0_off11 k0_t4) a + S1x16.size a ≤ S3x2048.size a
  k0_off12_inb : ∀ k0_t4 : Fin k0_t4_loop.trips, ∀ a, (k0_off12 k0_t4) a + S1x16.size a ≤ S3x2048.size a
  k0_off13_inb : ∀ k0_t4 : Fin k0_t4_loop.trips, ∀ a, (k0_off13 k0_t4) a + S16.size a ≤ S2048.size a
  k0_off14_inb : ∀ k0_t2 : Fin k0_t2_loop.trips, ∀ a, (k0_off14 k0_t2) a + S16.size a ≤ S1024.size a
  k0_off15_inb : ∀ i : grid0.Coords, ∀ a, (k0_off15 i) a + S1x1024.size a ≤ S32x1024.size a
  k0_off16_inb : ∀ i : grid0.Coords, ∀ a, (k0_off16 i) a + S1x2048.size a ≤ S32x2048.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S16x2048x3 : Shape := ⟨3, ![16, 2048, 3]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048 : Shape := ⟨2, ![16, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1x3, .f32⟩
  | .hbm, ⟨3, _⟩ => ⟨S16x1x2048x3, .f32⟩
  | .hbm, ⟨4, _⟩ => ⟨S16x2048x2048x3, .f32⟩
  | .hbm, ⟨5, _⟩ => ⟨S16x2048x2048x3, .f32⟩
  | .hbm, ⟨6, _⟩ => ⟨S16x2048x2048x3, .f32⟩
  | .hbm, ⟨7, _⟩ => ⟨S16x2048x2048x3, .f32⟩
  | .hbm, ⟨8, _⟩ => ⟨S_, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  reducesTo_S16x2048x2048_S16x2048_d2 : S16x2048x2048.ReducesTo [2] S16x2048
  reducesTo_S16x2048x2048_S16x2048_d1 : S16x2048x2048.ReducesTo [1] S16x2048
  reducesTo_S16x2048_S_d0_1 : S16x2048.ReducesTo [0, 1] S_

variable [Facts₀]

class Facts : Prop extends Facts₀ where

variable [Facts]
-- ==== Proof.TileSpec.lean ====
import Idealize.ShloMosaic.PureOps
import Idealize.ShloMosaic.Lib.ValueIdx

noncomputable section

namespace Cert.Chamfer

open Idealize.ShloMosaic Idealize.ShloMosaic.ValueIdx

variable {F : FTy → Type} [FloatOps F]

abbrev TCloud : Shape := ⟨3, ![16, 3, 2048]⟩

abbrev RowsOut : Shape := ⟨2, ![32, 1024]⟩
abbrev ColsOut : Shape := ⟨2, ![32, 2048]⟩

def tcIdx (b k n : Nat) : TCloud.Idx :=
  ix3 (⟨b % 16, Nat.mod_lt _ (by decide)⟩ : Fin 16) (⟨k % 3, Nat.mod_lt _ (by decide)⟩ : Fin 3) (⟨n % 2048, Nat.mod_lt _ (by decide)⟩ : Fin 2048)

def posInf : F .f32 := Scalar.ofBits .f32 0x7F800000#32

def sqK (gx gy gz px py pz : F .f32) : F .f32 :=
  FloatOps.addf
    (FloatOps.addf (FloatOps.mulf (FloatOps.subf px gx) (FloatOps.subf px gx))
      (FloatOps.mulf (FloatOps.subf py gy) (FloatOps.subf py gy)))
    (FloatOps.mulf (FloatOps.subf pz gz) (FloatOps.subf pz gz))

def dK (G P : TCloud.Idx → F .f32) (b n j : Nat) : F .f32 :=
  sqK (G (tcIdx b 0 n)) (G (tcIdx b 1 n)) (G (tcIdx b 2 n)) (P (tcIdx b 0 j)) (P (tcIdx b 1 j)) (P (tcIdx b 2 j))

def minUpTo (f : Nat → F .f32) : Nat → F .f32
  | 0 => posInf
  | k + 1 => FloatOps.minimumf (minUpTo f k) (f k)

theorem minUpTo_succ (f : Nat → F .f32) (k : Nat) : minUpTo f (k + 1) = FloatOps.minimumf (minUpTo f k) (f k) := rfl

def laneMin (G P : TCloud.Idx → F .f32) (b n l : Nat) : F .f32 :=
  minUpTo (fun c => dK G P b n (16 * c + l)) 128

def tree16 (x : Nat → F .f32) : F .f32 :=
  FloatOps.minimumf
    (FloatOps.minimumf
      (FloatOps.minimumf (FloatOps.minimumf (x 0) (x 1)) (FloatOps.minimumf (x 2) (x 3)))
      (FloatOps.minimumf (FloatOps.minimumf (x 4) (x 5)) (FloatOps.minimumf (x 6) (x 7))))
    (FloatOps.minimumf
      (FloatOps.minimumf (FloatOps.minimumf (x 8) (x 9)) (FloatOps.minimumf (x 10) (x 11)))
      (FloatOps.minimumf (FloatOps.minimumf (x 12) (x 13)) (FloatOps.minimumf (x 14) (x 15))))

def rowOut (G P : TCloud.Idx → F .f32) (w r : Nat) : F .f32 :=
  tree16 fun l => laneMin G P (w / 2) ((w % 2) * 1024 + r) l

def colOut (G P : TCloud.Idx → F .f32) (w j : Nat) : F .f32 :=
  minUpTo (fun r => dK G P (w / 2) ((w % 2) * 1024 + r) j) 1024

def rowsOut (G P : TCloud.Idx → F .f32) : RowsOut.Idx → F .f32 := fun i => rowOut G P (i 0).val (i 1).val
def colsOut (G P : TCloud.Idx → F .f32) : ColsOut.Idx → F .f32 := fun i => colOut G P (i 0).val (i 1).val

end Cert.Chamfer

end
-- ==== Proof.HostTail.lean ====
import proofs.«204275_g83442624626996_cont_9to1c4b_244_10_alg».proof.KernelIdeal
import proofs.«204275_g83442624626996_cont_9to1c4b_244_10_alg».proof.Proof.Gen.KernelIdeal

noncomputable section

namespace Cert.Proof.ChamferIdeal

open Idealize.ShloMosaic Cert.KernelIdeal Cert.KernelIdeal.Gen

variable {F : FTy → Type} [FloatOps F]

def hostTail (rm : FVec F S32x1024 .f32) (cm : FVec F S32x2048 .f32) : FVec F S_ .f32 :=
  addf
    (Host.divf
      (Host.reduceAdd (shapeCast S16x2048 rm shapeCasts_S32x1024_S16x2048) (constant S_ .f32 0x00000000#32)
        reducesTo_S16x2048_S_d0_1 h_S_)
      (constant S_ .f32 0x47000000#32))
    (Host.divf
      (Host.reduceAdd
        (Host.reduce FloatOps.minimumf (shapeCast S16x2x2048 cm shapeCasts_S32x2048_S16x2x2048)
          (constant S_ .f32 0x7F800000#32) reducesTo_S16x2x2048_S16x2048_d1 h_S_)
        (constant S_ .f32 0x00000000#32) reducesTo_S16x2048_S_d0_1 h_S_)
      (constant S_ .f32 0x47000000#32))

end Cert.Proof.ChamferIdeal

end
-- ==== Proof.Setup.lean ====
import proofs.«204275_g83442624626996_cont_9to1c4b_244_10_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204275_g83442624626996_cont_9to1c4b_244_10_alg».proof.Proof.Gen.KernelIdeal
import proofs.«204275_g83442624626996_cont_9to1c4b_244_10_alg».proof.Proof.Gen.KernelIdeal.Skeleton
import proofs.«204275_g83442624626996_cont_9to1c4b_244_10_alg».proof.Proof.TileSpec
import proofs.«204275_g83442624626996_cont_9to1c4b_244_10_alg».proof.Proof.HostTail

noncomputable section

namespace Cert.Proof.ChamferIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Chamfer

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) : Type := MT nD τ sig (HIx 1) (Elt F) ℕ UU ℕ

local notation "𝕄" => MM F

abbrev EH : Emb UH (MM F) := embL

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev gLoc (d : Dev nD) : Loc nD τ sig := (SparseCore.T d).loc main_v0
abbrev pLoc (d : Dev nD) : Loc nD τ sig := (SparseCore.T d).loc main_v1
abbrev rLoc (d : Dev nD) : Loc nD τ sig := (SparseCore.T d).loc main_v2_0
abbrev cLoc (d : Dev nD) : Loc nD τ sig := (SparseCore.T d).loc main_v2_1

theorem hdivG : 16 ∣ S16x3x2048.size 0 := ⟨1, rfl⟩
theorem hdivR : 32 ∣ S32x1024.size 0 := ⟨1, rfl⟩
theorem hdivC : 32 ∣ S32x2048.size 0 := ⟨1, rfl⟩

abbrev gSet (s : Fin 16) : Finset S16x3x2048.Idx := (Rect.part (s := S16x3x2048) (a₀ := 0) hdivG s).set
abbrev rSet (w : Fin 32) : Finset S32x1024.Idx := (Rect.part (s := S32x1024) (a₀ := 0) hdivR w).set
abbrev cSet (w : Fin 32) : Finset S32x2048.Idx := (Rect.part (s := S32x2048) (a₀ := 0) hdivC w).set

def wid (c : Fin 2) (s : Fin 16) : Fin 32 := ⟨2 * s.val + c.val, by omega⟩

abbrev coreShare (c : Fin 2) : PosShare TreeShare := Transfers.shareTok fullShare 2 c

variable [FloatOps F]

def G0 (d : Dev nD) : Buf (Elt F) (gLoc d) :=
  (transpose S16x3x2048 [0, 2, 1] (m (a0Loc d)) transposes_S16x2048x3_S16x3x2048_0_2_1 : (⟨S16x3x2048, .f32⟩ : BufTy).Contents (Elt F))
def P0 (d : Dev nD) : Buf (Elt F) (pLoc d) :=
  (transpose S16x3x2048 [0, 2, 1] (m (a1Loc d)) transposes_S16x2048x3_S16x3x2048_0_2_1 : (⟨S16x3x2048, .f32⟩ : BufTy).Contents (Elt F))

def R1 (d : Dev nD) : Buf (Elt F) (rLoc d) := (rowsOut (G0 m d) (P0 m d) : (⟨S32x1024, .f32⟩ : BufTy).Contents (Elt F))
def C1 (d : Dev nD) : Buf (Elt F) (cLoc d) := (colsOut (G0 m d) (P0 m d) : (⟨S32x2048, .f32⟩ : BufTy).Contents (Elt F))

def tileGo (d : Dev nD) (c : Fin 2) (s : Fin 16) : sProp 𝕄 :=
  iprop((gLoc d ↦[gSet s]{coreShare c} G0 m d) ∗ (pLoc d ↦[gSet s]{coreShare c} P0 m d)
    ∗ (∃ f, rLoc d ↦[rSet (wid c s)]{fullShare} f) ∗ (∃ f, cLoc d ↦[cSet (wid c s)]{fullShare} f))

def tileTd (d : Dev nD) (c : Fin 2) (s : Fin 16) : sProp 𝕄 :=
  iprop((gLoc d ↦[gSet s]{coreShare c} G0 m d) ∗ (pLoc d ↦[gSet s]{coreShare c} P0 m d)
    ∗ (rLoc d ↦[rSet (wid c s)]{fullShare} R1 m d) ∗ (cLoc d ↦[cSet (wid c s)]{fullShare} C1 m d))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev tileProg (L : grid0.Coords) :=
  cc0__chamfer_body (F := F) L (Memref.whole main_v0_scv) (Memref.isWhole_whole _) (Memref.whole main_v1_scv) (Memref.isWhole_whole _)
    (Memref.whole main_v2_0_scv) (Memref.isWhole_whole _) (Memref.whole main_v2_1_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scoped0 cc0_scoped1 cc0_scoped2 cc0_scoped3

def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop(tileTd m d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

def QC : PUnit × MemSt nD τ sig (Elt F) → Prop := fun r => ∀ c : Dev nD,
  r.2.mem ((SparseCore.T c).loc main_v10)
      = (hostTail (rowsOut (G0 m c) (P0 m c)) (colsOut (G0 m c) (P0 m c)) : (⟨S_, .f32⟩ : BufTy).Contents (Elt F))
    ∧ r.2.mem (a0Loc c) = m (a0Loc c) ∧ r.2.mem (a1Loc c) = m (a1Loc c)

end Cert.Proof.ChamferIdeal

end
-- ==== Proof.TileRes.lean ====
import proofs.«204275_g83442624626996_cont_9to1c4b_244_10_alg».proof.Proof.Setup

noncomputable section

namespace Cert.Proof.ChamferIdeal

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Chamfer

variable {F : FTy → Type}

local notation "𝕄" => MM F

variable (m : (ℓ : Loc nD τ sig) → Buf (Elt F) ℓ)

section Tile

variable (d : Dev nD) (L : grid0.Coords)

abbrev thrV (d : Dev nD) (L : grid0.Coords) : Thread nD τ := V d (cV L) (jV L)

abbrev cell0 (d : Dev nD) (L : grid0.Coords) : GSem nD τ sig := (thrV d L, .dma cc0_scoped0.sem)
abbrev cell1 (d : Dev nD) (L : grid0.Coords) : GSem nD τ sig := (thrV d L, .dma cc0_scoped1.sem)
abbrev cell2 (d : Dev nD) (L : grid0.Coords) : GSem nD τ sig := (thrV d L, .dma cc0_scoped2.sem)
abbrev cell3 (d : Dev nD) (L : grid0.Coords) : GSem nD τ sig := (thrV d L, .dma cc0_scoped3.sem)

theorem ownSems0_V :
    (ownSems0 (thrV d L) : sProp 𝕄)
      = iprop(semVal (cell0 d L) 0 ∗ semVal (cell1 d L) 0 ∗ semVal (cell2 d L) 0 ∗ semVal (cell3 d L) 0
          ∗ bigSep (((((ownCells (thrV d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have hne : ∀ {a b : Ref sig .scVector}, a ≠ b → (Proc.scVector (cV L) (jV L)).devRef a ≠ (Proc.scVector (cV L) (jV L)).devRef b :=
    fun h e => h (Proc.devRef_injective _ e)
  have hmem0 : (Proc.scVector (cV L) (jV L)).devRef cc0_scratch0 ∈ ownRefs (τ := τ) (.scVector (cV L) (jV L)) :=
    SparseCore.Cfg.mem_ownRefs_of_owner (p := Proc.scVector (cV L) (jV L)) (b := (Proc.scVector (cV L) (jV L)).devRef cc0_scratch0) rfl
  have hmem1 : (Proc.scVector (cV L) (jV L)).devRef cc0_scratch1 ∈ ownRefs (τ := τ) (.scVector (cV L) (jV L)) :=
    SparseCore.Cfg.mem_ownRefs_of_owner (p := Proc.scVector (cV L) (jV L)) (b := (Proc.scVector (cV L) (jV L)).devRef cc0_scratch1) rfl
  have hmem2 : (Proc.scVector (cV L) (jV L)).devRef cc0_scratch2 ∈ ownRefs (τ := τ) (.scVector (cV L) (jV L)) :=
    SparseCore.Cfg.mem_ownRefs_of_owner (p := Proc.scVector (cV L) (jV L)) (b := (Proc.scVector (cV L) (jV L)).devRef cc0_scratch2) rfl
  have hmem3 : (Proc.scVector (cV L) (jV L)).devRef cc0_scratch3 ∈ ownRefs (τ := τ) (.scVector (cV L) (jV L)) :=
    SparseCore.Cfg.mem_ownRefs_of_owner (p := Proc.scVector (cV L) (jV L)) (b := (Proc.scVector (cV L) (jV L)).devRef cc0_scratch3) rfl
  have hmem4 : (Proc.scVector (cV L) (jV L)).devRef cc0_scratch4 ∈ ownRefs (τ := τ) (.scVector (cV L) (jV L)) :=
    SparseCore.Cfg.mem_ownRefs_of_owner (p := Proc.scVector (cV L) (jV L)) (b := (Proc.scVector (cV L) (jV L)).devRef cc0_scratch4) rfl
  refine (SparseCore.bigSep_erase' hmem0).trans ?_
  rw [SparseCore.bigSep_erase' (Finset.mem_erase.mpr ⟨hne (show (cc0_scratch1 : Ref sig .scVector) ≠ cc0_scratch0 by decide), hmem1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hmem2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), hmem3⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide), hmem4⟩⟩⟩⟩)]

abbrev gSl (L : grid0.Coords) : Memref sig .scVector .hbm S3x2048 .f32 :=
  ((Memref.whole main_v0_scv : Memref sig .scVector .hbm S16x3x2048 .f32).slice (Rect.unit (s := S16x3x2048) (k0_off1 L) S1x3x2048.size (k0_off1_inb L)) (fun _ => rfl)).squeeze S3x2048 squeezes_S1x3x2048_S3x2048
abbrev pSl (L : grid0.Coords) : Memref sig .scVector .hbm S3x2048 .f32 :=
  ((Memref.whole main_v1_scv : Memref sig .scVector .hbm S16x3x2048 .f32).slice (Rect.unit (s := S16x3x2048) (k0_off1 L) S1x3x2048.size (k0_off1_inb L)) (fun _ => rfl)).squeeze S3x2048 squeezes_S1x3x2048_S3x2048
abbrev rSl (L : grid0.Coords) : Memref sig .scVector .hbm S1024 .f32 :=
  ((Memref.whole main_v2_0_scv : Memref sig .scVector .hbm S32x1024 .f32).slice (Rect.unit (s := S32x1024) (k0_off15 L) S1x1024.size (k0_off15_inb L)) (fun _ => rfl)).squeeze S1024 squeezes_S1x1024_S1024
abbrev cSl (L : grid0.Coords) : Memref sig .scVector .hbm S2048 .f32 :=
  ((Memref.whole main_v2_1_scv : Memref sig .scVector .hbm S32x2048 .f32).slice (Rect.unit (s := S32x2048) (k0_off16 L) S1x2048.size (k0_off16_inb L)) (fun _ => rfl)).squeeze S2048 squeezes_S1x2048_S2048

abbrev gScr : Memref sig .scVector .vmem S3x2048 .f32 := Memref.whole cc0_scratch0
abbrev pScr : Memref sig .scVector .vmem S3x2048 .f32 := Memref.whole cc0_scratch1
abbrev cScr : Memref sig .scVector .vmem S2048 .f32 := Memref.whole cc0_scratch2
abbrev rScr : Memref sig .scVector .vmem S1024 .f32 := Memref.whole cc0_scratch3
abbrev aScr : Memref sig .scVector .vmem S16x16 .f32 := Memref.whole cc0_scratch4

end Tile

end Cert.Proof.ChamferIdeal

end
-- ==== Proof.TileInv.lean ====
import proofs.«204275_g83442624626996_cont_9to1c4b_244_10_alg».proof.Proof.TileRes

noncomputable section

namespace Cert.Proof.ChamferIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

def foldFrom (c0 : F .f32) (f : Nat → F .f32) : Nat → F .f32
  | 0 => c0
  | n + 1 => FloatOps.minimumf (foldFrom c0 f n) (f n)

def scrAt (X : S3x2048.Idx → F .f32) (k j : Nat) : F .f32 :=
  X (ValueIdx.ix2 (⟨k % 3, Nat.mod_lt _ (by decide)⟩ : Fin 3) (⟨j % 2048, Nat.mod_lt _ (by decide)⟩ : Fin 2048))

def dRow (Pv : S3x2048.Idx → F .f32) (gx gy gz : Nat → F .f32) (r j : Nat) : F .f32 :=
  sqK (gx r) (gy r) (gz r) (scrAt Pv 0 j) (scrAt Pv 1 j) (scrAt Pv 2 j)

section Inner

variable (d : Dev nD) (L : grid0.Coords)

abbrev Acc8 (F : FTy → Type) : Type :=
  FVec F S16 .f32 × FVec F S16 .f32 × FVec F S16 .f32 × FVec F S16 .f32 × FVec F S16 .f32 × FVec F S16 .f32 × FVec F S16 .f32 × FVec F S16 .f32

def Acc8.get (a : Acc8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

def invInner (Pv : Buf (Elt F) ((thrV d L).loc cc0_scratch1)) (col0 : Buf (Elt F) ((thrV d L).loc cc0_scratch2))
    (gx gy gz : Nat → F .f32) (r0 : Nat) (k : Nat) (acc : Acc8 F) : sProp 𝕄 :=
  iprop(((pScr).view.loc (thrV d L) ↦{fullShare} Pv)
    ∗ (∃ f, ((cScr).view.loc (thrV d L) ↦{fullShare} f)
        ∗ ⌜∀ j : Fin 2048, f (ValueIdx.ix1 j)
            = if j.val < 16 * k then foldFrom (col0 (ValueIdx.ix1 j)) (fun r => dRow Pv gx gy gz (r0 + r) j.val) 8 else col0 (ValueIdx.ix1 j)⌝)
    ∗ ⌜∀ (r : Fin 8) (l : Fin 16), acc.get r (ValueIdx.ix1 l) = minUpTo (fun c => dRow Pv gx gy gz (r0 + r.val) (16 * c + l.val)) k⌝)

end Inner

section Outer

variable (d : Dev nD) (L : grid0.Coords)
variable (Gv : Buf (Elt F) ((thrV d L).loc cc0_scratch0)) (Pv : Buf (Elt F) ((thrV d L).loc cc0_scratch1))

def gxG (r : Nat) : F .f32 := scrAt Gv 0 (1024 * (L 0).val + r)
def gyG (r : Nat) : F .f32 := scrAt Gv 1 (1024 * (L 0).val + r)
def gzG (r : Nat) : F .f32 := scrAt Gv 2 (1024 * (L 0).val + r)

def rowVal (i : Nat) : F .f32 :=
  tree16 fun c => minUpTo (fun cc => dRow Pv (gxG d L Gv) (gyG d L Gv) (gzG d L Gv) i (16 * cc + c)) 128

def colVal (n j : Nat) : F .f32 :=
  minUpTo (fun r => dRow Pv (gxG d L Gv) (gyG d L Gv) (gzG d L Gv) r j) n

def inv2 (k : Nat) (_ : BitVec 32) : sProp 𝕄 :=
  iprop(((gScr).view.loc (thrV d L) ↦{fullShare} Gv) ∗ ((pScr).view.loc (thrV d L) ↦{fullShare} Pv)
    ∗ (∃ fc, ((cScr).view.loc (thrV d L) ↦{fullShare} fc) ∗ ⌜∀ j : Fin 2048, fc (ValueIdx.ix1 j) = colVal d L Gv Pv (16 * k) j.val⌝)
    ∗ (∃ fr, ((rScr).view.loc (thrV d L) ↦{fullShare} fr) ∗ ⌜∀ i : Fin 1024, i.val < 16 * k → fr (ValueIdx.ix1 i) = rowVal d L Gv Pv i.val⌝)
    ∗ (∃ fa, (aScr).view.loc (thrV d L) ↦{fullShare} fa))

end Outer

end Cert.Proof.ChamferIdeal

end
-- ==== Proof.PayLane.lean ====
import proofs.«204275_g83442624626996_cont_9to1c4b_244_10_alg».proof.Proof.Gen.KernelIdeal.Skeleton
import proofs.«204275_g83442624626996_cont_9to1c4b_244_10_alg».proof.Proof.TileSpec
import Idealize.ShloMosaic.Lib.ValueIdx
import Idealize.ShloMosaic.Lib.ValueLayout

noncomputable section

namespace Cert.Proof.ChamferIdeal

open Idealize.ShloMosaic Idealize.ShloMosaic.ValueIdx Cert.KernelIdeal Cert.KernelIdeal.Gen Cert.Chamfer

variable {F : FTy → Type} [FloatOps F]

/-- Extracting lane `n` commutes with reading: the one-element window starts at `n`. -/
theorem lane_extract {α : Type} (v : S16.Idx → α) (n : ℕ) (hs : S16.Slices ![n] S1) :
    extractAt ![0] (extractStridedSlice S1 ![n] v hs) inpos_S1_p0 = v (ix1 ⟨n, hs.2 0⟩) := by
  unfold extractAt extractStridedSlice
  exact congrArg v (funext fun a => match a with | ⟨0, _⟩ => rfl)

/-- Flattening a 1 × 16 array does not move its entries. -/
theorem row_lane (v : Vec F S1x16 .f32) (l : Fin 16) :
    shapeCast S16 v shapeCasts_S1x16_S16 (ix1 l) = v (ix2 (0 : Fin 1) l) :=
  shapeCast_1a_a_apply v shapeCasts_S1x16_S16 l

theorem subf_at (a b : FVec F S16 .f32) (i : S16.Idx) : subf a b i = FloatOps.subf (a i) (b i) := rfl
theorem mulf_at (a b : FVec F S16 .f32) (i : S16.Idx) : mulf a b i = FloatOps.mulf (a i) (b i) := rfl
theorem addf_at (a b : FVec F S16 .f32) (i : S16.Idx) : addf a b i = FloatOps.addf (a i) (b i) := rfl
theorem minimumf_at (a b : FVec F S16 .f32) (i : S16.Idx) : minimumf a b i = FloatOps.minimumf (a i) (b i) := rfl

end Cert.Proof.ChamferIdeal

end
-- ==== Proof.Offsets.lean ====
import proofs.«204275_g83442624626996_cont_9to1c4b_244_10_alg».proof.Proof.Gen.KernelIdeal
import Idealize.ShloMosaic.Lib.Affine

set_option Elab.async false
set_option synthInstance.maxSize 4096

namespace Cert.Proof.ChamferIdeal

open Idealize.ShloMosaic Cert.KernelIdeal Cert.KernelIdeal.Gen

theorem k0_t1_trips : k0_t1_loop.trips = 128 := by decide
theorem k0_t2_trips : k0_t2_loop.trips = 64 := by decide
theorem k0_t3_trips : k0_t3_loop.trips = 128 := by decide
theorem k0_t4_trips : k0_t4_loop.trips = 128 := by decide

theorem k0_off1_eq : ∀ i : grid0.Coords, k0_off1 i = ![(i 1).val, 0, 0] := by decide +kernel

theorem k0_off3_eq : ∀ (i : grid0.Coords) (k : Fin k0_t2_loop.trips),
    k0_off3 i k = ![0, 1024 * (i 0).val + 16 * k.val] := by decide +kernel

theorem k0_off4_eq : ∀ (i : grid0.Coords) (k : Fin k0_t2_loop.trips),
    k0_off4 i k = ![1, 1024 * (i 0).val + 16 * k.val] := by decide +kernel

theorem k0_off5_eq : ∀ (i : grid0.Coords) (k : Fin k0_t2_loop.trips),
    k0_off5 i k = ![2, 1024 * (i 0).val + 16 * k.val] := by decide +kernel

end Cert.Proof.ChamferIdeal
-- ==== Proof.ScratchIdx.lean ====
import proofs.«204275_g83442624626996_cont_9to1c4b_244_10_alg».proof.Proof.TileRes
import proofs.«204275_g83442624626996_cont_9to1c4b_244_10_alg».proof.Proof.Offsets
import Idealize.ShloMosaic.Lib.Writes
import Idealize.ShloMosaic.Lib.WritesUnit
import Idealize.ShloMosaic.Lib.ValueIdx
import Idealize.ShloMosaic.Lib.ValueLayout

noncomputable section

namespace Cert.Proof.ChamferIdeal

open Cert.KernelIdeal Cert.KernelIdeal.Gen

open Idealize.ShloMosaic
open Idealize.SL.Sem
open Idealize.ShloMosaic.ValueIdx
open Cert.Chamfer

variable {F : FTy → Type}

theorem gRect_eq (L : grid0.Coords) :
    Rect.unit (s := S16x3x2048) (k0_off1 L) S1x3x2048.size (k0_off1_inb L)
      = Rect.part (s := S16x3x2048) (a₀ := 0) hdivG (sL L) := by
  unfold Rect.part Rect.block
  congr 1 <;> funext a
  · rw [k0_off1_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem rRect_eq (L : grid0.Coords) :
    Rect.unit (s := S32x1024) (k0_off15 L) S1x1024.size (k0_off15_inb L)
      = Rect.part (s := S32x1024) (a₀ := 0) hdivR (wid (cL L) (sL L)) := by
  unfold Rect.part Rect.block
  congr 1 <;> funext a
  · rw [k0_off15_eq]
    match a with
    | 0 => simp [Shape.partIx, Shape.partSize, wid]
    | 1 => simp [Shape.partIx, Shape.partSize]
  · match a with
    | 0 => simp [Shape.partSize]
    | 1 => simp [Shape.partSize]

theorem cRect_eq (L : grid0.Coords) :
    Rect.unit (s := S32x2048) (k0_off16 L) S1x2048.size (k0_off16_inb L)
      = Rect.part (s := S32x2048) (a₀ := 0) hdivC (wid (cL L) (sL L)) := by
  unfold Rect.part Rect.block
  congr 1 <;> funext a
  · rw [k0_off16_eq]
    match a with
    | 0 => simp [Shape.partIx, Shape.partSize, wid]
    | 1 => simp [Shape.partIx, Shape.partSize]
  · match a with
    | 0 => simp [Shape.partSize]
    | 1 => simp [Shape.partSize]

theorem set_gSl (L : grid0.Coords) : (gSl L).view.set = gSet (sL L) := by
  show (((Memref.whole main_v0_scv : Memref sig .scVector .hbm S16x3x2048 .f32).view.slice
      (Rect.unit (s := S16x3x2048) (k0_off1 L) S1x3x2048.size (k0_off1_inb L))).reshape S3x2048 squeezes_S1x3x2048_S3x2048.numel_eq).set = _
  rw [View.set_reshape, View.set_slice]
  exact Finset.map_refl.trans (congrArg (fun r : Rect S16x3x2048 => r.set) (gRect_eq L))

theorem set_pSl (L : grid0.Coords) : (pSl L).view.set = gSet (sL L) := by
  show (((Memref.whole main_v1_scv : Memref sig .scVector .hbm S16x3x2048 .f32).view.slice
      (Rect.unit (s := S16x3x2048) (k0_off1 L) S1x3x2048.size (k0_off1_inb L))).reshape S3x2048 squeezes_S1x3x2048_S3x2048.numel_eq).set = _
  rw [View.set_reshape, View.set_slice]
  exact Finset.map_refl.trans (congrArg (fun r : Rect S16x3x2048 => r.set) (gRect_eq L))

theorem set_rSl (L : grid0.Coords) : (rSl L).view.set = rSet (wid (cL L) (sL L)) := by
  show (((Memref.whole main_v2_0_scv : Memref sig .scVector .hbm S32x1024 .f32).view.slice
      (Rect.unit (s := S32x1024) (k0_off15 L) S1x1024.size (k0_off15_inb L))).reshape S1024 squeezes_S1x1024_S1024.numel_eq).set = _
  rw [View.set_reshape, View.set_slice]
  exact Finset.map_refl.trans (congrArg (fun r : Rect S32x1024 => r.set) (rRect_eq L))

theorem set_cSl (L : grid0.Coords) : (cSl L).view.set = cSet (wid (cL L) (sL L)) := by
  show (((Memref.whole main_v2_1_scv : Memref sig .scVector .hbm S32x2048 .f32).view.slice
      (Rect.unit (s := S32x2048) (k0_off16 L) S1x2048.size (k0_off16_inb L))).reshape S2048 squeezes_S1x2048_S2048.numel_eq).set = _
  rw [View.set_reshape, View.set_slice]
  exact Finset.map_refl.trans (congrArg (fun r : Rect S32x2048 => r.set) (cRect_eq L))

section Scratch

variable (d : Dev nD) (L : grid0.Coords)

theorem cScr_writes_at (f : Buf (Elt F) ((thrV d L).loc cc0_scratch2)) (o : Fin 1 → ℕ) (hin : ∀ a, o a + S16.size a ≤ S2048.size a)
    (off : ℕ) (ho : o = ![off]) (w : Vec F S16 .f32) (j : Fin 2048) :
    (cScr).view.writes (Elt F) f [⟨Rect.unit (s := S2048) o S16.size hin, w⟩] (ix1 j)
      = if h : off ≤ j.val ∧ j.val < off + 16 then w (ix1 (⟨j.val - off, by omega⟩ : Fin 16)) else f (ix1 j) := by
  subst ho
  by_cases hj : off ≤ j.val ∧ j.val < off + 16
  · rw [dif_pos hj]
    exact View.read_writes_cons_unit_of_mem (cScr).view f hin w [] (ix1 j) (ix1 (⟨j.val - off, by omega⟩ : Fin 16)) rfl
      (fun a => by
        match a with
        | ⟨0, _⟩ => show j.val = off + (j.val - off); omega)
  · rw [dif_neg hj]
    exact View.read_writes_cons_unit_of_not_mem (cScr).view f hin w [] (ix1 j) rfl (0 : Fin 1)
      (by show j.val < off ∨ off + 16 ≤ j.val; omega)

theorem rScr_writes_at (f : Buf (Elt F) ((thrV d L).loc cc0_scratch3)) (o : Fin 1 → ℕ) (hin : ∀ a, o a + S16.size a ≤ S1024.size a)
    (off : ℕ) (ho : o = ![off]) (w : Vec F S16 .f32) (j : Fin 1024) :
    (rScr).view.writes (Elt F) f [⟨Rect.unit (s := S1024) o S16.size hin, w⟩] (ix1 j)
      = if h : off ≤ j.val ∧ j.val < off + 16 then w (ix1 (⟨j.val - off, by omega⟩ : Fin 16)) else f (ix1 j) := by
  subst ho
  by_cases hj : off ≤ j.val ∧ j.val < off + 16
  · rw [dif_pos hj]
    exact View.read_writes_cons_unit_of_mem (rScr).view f hin w [] (ix1 j) (ix1 (⟨j.val - off, by omega⟩ : Fin 16)) rfl
      (fun a => by
        match a with
        | ⟨0, _⟩ => show j.val = off + (j.val - off); omega)
  · rw [dif_neg hj]
    exact View.read_writes_cons_unit_of_not_mem (rScr).view f hin w [] (ix1 j) rfl (0 : Fin 1)
      (by show j.val < off ∨ off + 16 ≤ j.val; omega)

theorem gScr_row_lane (Pv : Buf (Elt F) ((thrV d L).loc cc0_scratch0)) (o : Fin 2 → ℕ)
    (hin : ∀ a, o a + S1x16.size a ≤ S3x2048.size a) (row : Fin 3) (off : ℕ) (ho : o = ![row.val, off]) (l : Fin 16)
    (hl : off + l.val < 2048) :
    (gScr).view.readAt (Elt F) (Rect.unit (s := S3x2048) o S1x16.size hin).toLoadRect Pv (ix2 (0 : Fin 1) l)
      = Pv (ix2 row (⟨off + l.val, hl⟩ : Fin 2048)) := by
  subst ho
  show Pv ((Rect.unit (s := S3x2048) ![row.val, off] S1x16.size hin).toLoadRect.idx (ix2 (0 : Fin 1) l)) = _
  refine congrArg Pv (funext fun a => ?_)
  match a with
  | ⟨0, _⟩ => exact Fin.ext (by show row.val + 1 * 0 = row.val; omega)
  | ⟨1, _⟩ => exact Fin.ext (by show off + 1 * l.val = off + l.val; omega)

end Scratch

theorem aScr_writes_row_cons (f : aScr.view.ty.Contents (Elt F)) {r : Nat}
    (h : ∀ a, (![r, 0] : Fin 2 → Nat) a + S1x16.size a ≤ S16x16.size a)
    (v : (Rect.unit (s := S16x16) ![r, 0] S1x16.size h).shape.Idx → Elt F .f32)
    (Lst : List (View.Piece (Elt F) S16x16 .f32)) (x y : Fin 16) :
    (aScr.view.writes (Elt F) f (⟨Rect.unit (s := S16x16) ![r, 0] S1x16.size h, v⟩ :: Lst)) (ix2 x y)
      = if x.val = r then v (ix2 (0 : Fin 1) y) else (aScr.view.writes (Elt F) f Lst) (ix2 x y) := by
  by_cases hx : x.val = r
  · rw [if_pos hx]
    exact View.read_writes_cons_unit_of_mem aScr.view f h v Lst (ix2 x y) (ix2 (0 : Fin 1) y) rfl
      (fun b => by
        match b with
        | ⟨0, _⟩ => show x.val = r + 0; omega
        | ⟨1, _⟩ => show y.val = 0 + y.val; omega)
  · rw [if_neg hx]
    exact View.read_writes_cons_unit_of_not_mem aScr.view f h v Lst (ix2 x y) rfl (0 : Fin 2)
      (by show x.val < r ∨ r + 1 ≤ x.val; omega)

theorem aScr_read_whole (g : aScr.view.ty.Contents (Elt F)) (x y : Fin 16) :
    View.read (Elt F) ((aScr : Memref sig .scVector .vmem S16x16 .f32).access (Rect.whole S16x16)) g (ix2 x y)
      = g (ix2 x y) := by
  show g ((Rect.whole S16x16).emb (ix2 x y)) = g (ix2 x y)
  refine congrArg g (funext fun b => ?_)
  match b with
  | ⟨0, _⟩ => exact Fin.ext (by show 0 + 1 * x.val = x.val; omega)
  | ⟨1, _⟩ => exact Fin.ext (by show 0 + 1 * y.val = y.val; omega)

theorem aScr_rows {d : Dev nD} {L : grid0.Coords} (fa : Buf (Elt F) ((thrV d L).loc cc0_scratch4))
    (a : Fin 16 → FVec F S16 .f32) (ln c : Fin 16) :
    (View.read (Elt F) ((aScr : Memref sig .scVector .vmem S16x16 .f32).access (Rect.whole S16x16))
      (aScr.view.writes (Elt F) fa
        [⟨Rect.unit (s := S16x16) ![15, 0] S1x16.size inb_S16x16_S1x16_15_0, shapeCast S1x16 (a 15) shapeCasts_S16_S1x16⟩,
          ⟨Rect.unit (s := S16x16) ![14, 0] S1x16.size inb_S16x16_S1x16_14_0, shapeCast S1x16 (a 14) shapeCasts_S16_S1x16⟩,
          ⟨Rect.unit (s := S16x16) ![13, 0] S1x16.size inb_S16x16_S1x16_13_0, shapeCast S1x16 (a 13) shapeCasts_S16_S1x16⟩,
          ⟨Rect.unit (s := S16x16) ![12, 0] S1x16.size inb_S16x16_S1x16_12_0, shapeCast S1x16 (a 12) shapeCasts_S16_S1x16⟩,
          ⟨Rect.unit (s := S16x16) ![11, 0] S1x16.size inb_S16x16_S1x16_11_0, shapeCast S1x16 (a 11) shapeCasts_S16_S1x16⟩,
          ⟨Rect.unit (s := S16x16) ![10, 0] S1x16.size inb_S16x16_S1x16_10_0, shapeCast S1x16 (a 10) shapeCasts_S16_S1x16⟩,
          ⟨Rect.unit (s := S16x16) ![9, 0] S1x16.size inb_S16x16_S1x16_9_0, shapeCast S1x16 (a 9) shapeCasts_S16_S1x16⟩,
          ⟨Rect.unit (s := S16x16) ![8, 0] S1x16.size inb_S16x16_S1x16_8_0, shapeCast S1x16 (a 8) shapeCasts_S16_S1x16⟩,
          ⟨Rect.unit (s := S16x16) ![7, 0] S1x16.size inb_S16x16_S1x16_7_0, shapeCast S1x16 (a 7) shapeCasts_S16_S1x16⟩,
          ⟨Rect.unit (s := S16x16) ![6, 0] S1x16.size inb_S16x16_S1x16_6_0, shapeCast S1x16 (a 6) shapeCasts_S16_S1x16⟩,
          ⟨Rect.unit (s := S16x16) ![5, 0] S1x16.size inb_S16x16_S1x16_5_0, shapeCast S1x16 (a 5) shapeCasts_S16_S1x16⟩,
          ⟨Rect.unit (s := S16x16) ![4, 0] S1x16.size inb_S16x16_S1x16_4_0, shapeCast S1x16 (a 4) shapeCasts_S16_S1x16⟩,
          ⟨Rect.unit (s := S16x16) ![3, 0] S1x16.size inb_S16x16_S1x16_3_0, shapeCast S1x16 (a 3) shapeCasts_S16_S1x16⟩,
          ⟨Rect.unit (s := S16x16) ![2, 0] S1x16.size inb_S16x16_S1x16_2_0, shapeCast S1x16 (a 2) shapeCasts_S16_S1x16⟩,
          ⟨Rect.unit (s := S16x16) ![1, 0] S1x16.size inb_S16x16_S1x16_1_0, shapeCast S1x16 (a 1) shapeCasts_S16_S1x16⟩,
          ⟨Rect.unit (s := S16x16) ![0, 0] S1x16.size inb_S16x16_S1x16_0_0, shapeCast S1x16 (a 0) shapeCasts_S16_S1x16⟩])) (ix2 ln c)
      = a ln (ix1 c) := by
  rw [aScr_read_whole]
  iterate 16 rw [aScr_writes_row_cons]
  fin_cases ln <;> simp [shapeCast_a_1a_apply]

end Cert.Proof.ChamferIdeal

end
-- ==== Proof.TileFinal.lean ====
import proofs.«204275_g83442624626996_cont_9to1c4b_244_10_alg».proof.Proof.TileInv
import proofs.«204275_g83442624626996_cont_9to1c4b_244_10_alg».proof.Proof.TileSpec

noncomputable section

namespace Cert.Proof.ChamferIdeal

open Cert.KernelIdeal Cert.KernelIdeal.Gen

open Idealize.ShloMosaic
open Idealize.SL.Sem
open Cert.Chamfer
open Idealize.ShloMosaic.ValueIdx

variable {F : FTy → Type} [FloatOps F]

theorem sub_lt (L : grid0.Coords) : (L 1).val < 16 := (L 1).isLt

theorem half_lt (L : grid0.Coords) : (L 0).val < 2 := (L 0).isLt

theorem scrAt_eq_tc (X : S3x2048.Idx → F .f32) (C : TCloud.Idx → F .f32) (b : Fin 16)
    (hX : ∀ (k : Fin 3) (n : Fin 2048), X (ix2 k n) = C (ix3 b k n)) (B : Nat) (hB : B % 16 = b.val) (k n : Nat) :
    scrAt X k n = C (tcIdx B k n) := by
  have e : (⟨B % 16, Nat.mod_lt _ (by decide)⟩ : Fin 16) = b := Fin.ext hB
  unfold scrAt tcIdx
  rw [hX, e]

section Worker

variable (d : Dev nD) (L : grid0.Coords) (G P : TCloud.Idx → F .f32)
variable (Gv : Buf (Elt F) ((thrV d L).loc cc0_scratch0)) (Pv : Buf (Elt F) ((thrV d L).loc cc0_scratch1))

theorem dRow_eq_dK
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (r j : Nat) :
    dRow Pv (gxG d L Gv) (gyG d L Gv) (gzG d L Gv) r j
      = dK G P ((2 * (L 1).val + (L 0).val) / 2) (((2 * (L 1).val + (L 0).val) % 2) * 1024 + r) j := by
  have hb := sub_lt L
  have hh := half_lt L
  have hB : ((2 * (L 1).val + (L 0).val) / 2) % 16 = (⟨(L 1).val, sub_lt L⟩ : Fin 16).val := by
    show ((2 * (L 1).val + (L 0).val) / 2) % 16 = (L 1).val
    omega
  have hn : ((2 * (L 1).val + (L 0).val) % 2) * 1024 + r = 1024 * (L 0).val + r := by omega
  unfold dRow gxG gyG gzG dK
  rw [hn]
  simp only [scrAt_eq_tc Gv G _ hG _ hB, scrAt_eq_tc Pv P _ hP _ hB]

theorem rowVal_eq
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (i : Fin 1024) :
    rowVal d L Gv Pv i.val = rowOut G P (2 * (L 1).val + (L 0).val) i.val := by
  unfold rowVal rowOut laneMin
  simp only [dRow_eq_dK d L G P Gv Pv hG hP]

theorem colVal_eq
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (j : Fin 2048) :
    colVal d L Gv Pv 1024 j.val = colOut G P (2 * (L 1).val + (L 0).val) j.val := by
  unfold colVal colOut
  simp only [dRow_eq_dK d L G P Gv Pv hG hP]

end Worker

end Cert.Proof.ChamferIdeal

end
-- ==== Proof.InnerLoops.lean ====
import proofs.«204275_g83442624626996_cont_9to1c4b_244_10_alg».proof.Proof.TileInv
import proofs.«204275_g83442624626996_cont_9to1c4b_244_10_alg».proof.Proof.PayLane
import proofs.«204275_g83442624626996_cont_9to1c4b_244_10_alg».proof.Proof.Offsets
import proofs.«204275_g83442624626996_cont_9to1c4b_244_10_alg».proof.Proof.ScratchIdx
import proofs.«204275_g83442624626996_cont_9to1c4b_244_10_alg».proof.Proof.TileFinal
import Idealize.ShloMosaic.Lib.WritesUnit

noncomputable section

namespace Cert.Proof.ChamferIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

section Idx

open Idealize.ShloMosaic.ValueIdx

variable (d : Dev nD) (L : grid0.Coords)

private theorem cScr_writes_hit (f : Buf (Elt F) ((thrV d L).loc cc0_scratch2)) (o : Fin 1 → ℕ)
    (hin : ∀ a, o a + S16.size a ≤ S2048.size a) (off : ℕ) (ho : o = ![off]) (w : Vec F S16 .f32) (j : Fin 2048)
    (l : Fin 16) (hj : j.val = off + l.val) :
    (cScr).view.writes (Elt F) f [⟨Rect.unit (s := S2048) o S16.size hin, w⟩] (ix1 j) = w (ix1 l) :=
  View.read_writes_cons_unit_of_mem (cScr).view f hin w [] (ix1 j) (ix1 l) ho
    (fun a => match a with | ⟨0, _⟩ => hj)

private theorem cScr_writes_miss (f : Buf (Elt F) ((thrV d L).loc cc0_scratch2)) (o : Fin 1 → ℕ)
    (hin : ∀ a, o a + S16.size a ≤ S2048.size a) (off : ℕ) (ho : o = ![off]) (w : Vec F S16 .f32) (j : Fin 2048)
    (hj : j.val < off ∨ off + 16 ≤ j.val) :
    (cScr).view.writes (Elt F) f [⟨Rect.unit (s := S2048) o S16.size hin, w⟩] (ix1 j) = f (ix1 j) :=
  View.read_writes_cons_unit_of_not_mem (cScr).view f hin w [] (ix1 j) ho (0 : Fin 1) hj

private theorem cScr_chunk_lane (f : Buf (Elt F) ((thrV d L).loc cc0_scratch2)) (o : Fin 1 → ℕ)
    (hin : ∀ a, o a + S16.size a ≤ S2048.size a) (off : ℕ) (ho : o = ![off]) (l : Fin 16) (hl : off + l.val < 2048) :
    (cScr).view.readAt (Elt F) (Rect.unit (s := S2048) o S16.size hin).toLoadRect f (ix1 l)
      = f (ix1 (⟨off + l.val, hl⟩ : Fin 2048)) := by
  subst ho
  exact congrArg f (funext fun a => match a with
    | ⟨0, _⟩ => Fin.ext (by show off + 1 * l.val = off + l.val; omega))

private theorem pScr_row_lane (Pv : Buf (Elt F) ((thrV d L).loc cc0_scratch1)) (o : Fin 2 → ℕ)
    (hin : ∀ a, o a + S1x16.size a ≤ S3x2048.size a) (row : Fin 3) (off : ℕ) (ho : o = ![row.val, off])
    (l : Fin 16) (hl : off + l.val < 2048) :
    (pScr).view.readAt (Elt F) (Rect.unit (s := S3x2048) o S1x16.size hin).toLoadRect Pv (ix2 (0 : Fin 1) l)
      = Pv (ix2 row (⟨off + l.val, hl⟩ : Fin 2048)) := by
  subst ho
  exact congrArg Pv (funext fun a => match a with
    | ⟨0, _⟩ => Fin.ext (by show row.val + 1 * 0 = row.val; omega)
    | ⟨1, _⟩ => Fin.ext (by show off + 1 * l.val = off + l.val; omega))

private theorem scrAt_eq (X : S3x2048.Idx → F .f32) (c j : Nat) (hc : c < 3) (hj : j < 2048) :
    scrAt X c j = X (ix2 (⟨c, hc⟩ : Fin 3) (⟨j, hj⟩ : Fin 2048)) := by
  simp only [scrAt, Nat.mod_eq_of_lt hc, Nat.mod_eq_of_lt hj]

private theorem pScr_at (Pv : Buf (Elt F) ((thrV d L).loc cc0_scratch1)) (o : Fin 2 → ℕ)
    (hin : ∀ a, o a + S1x16.size a ≤ S3x2048.size a) (row : Fin 3) (kk : ℕ) (hk : kk < 128) (ho : o = ![row.val, 16 * kk]) (l : Fin 16) :
    shapeCast S16 ((pScr).view.readAt (Elt F) (Rect.unit (s := S3x2048) o S1x16.size hin).toLoadRect Pv) shapeCasts_S1x16_S16 (ix1 l)
      = scrAt Pv row.val (16 * kk + l.val) :=
  (row_lane _ l).trans ((pScr_row_lane d L Pv o hin row (16 * kk) ho l (by omega)).trans (scrAt_eq Pv row.val _ row.isLt (by omega)).symm)

/-- Sixteen entries of the running column minima take eight more points each; every other entry keeps its value. -/
private theorem col_step (Pv : Buf (Elt F) ((thrV d L).loc cc0_scratch1)) (col0 f : Buf (Elt F) ((thrV d L).loc cc0_scratch2))
    (gx gy gz : Nat → F .f32) (r0 kk : ℕ) (hk : kk < 128) (o : Fin 1 → ℕ) (hin : ∀ a, o a + S16.size a ≤ S2048.size a)
    (ho : o = ![16 * kk]) (w : Vec F S16 .f32)
    (hf : ∀ j : Fin 2048, f (ix1 j)
      = if j.val < 16 * kk then foldFrom (col0 (ix1 j)) (fun r => dRow Pv gx gy gz (r0 + r) j.val) 8 else col0 (ix1 j))
    (hw : ∀ l : Fin 16, w (ix1 l)
      = foldFrom (col0 (ix1 (⟨16 * kk + l.val, by omega⟩ : Fin 2048))) (fun r => dRow Pv gx gy gz (r0 + r) (16 * kk + l.val)) 8)
    (j : Fin 2048) :
    (cScr).view.writes (Elt F) f [⟨Rect.unit (s := S2048) o S16.size hin, w⟩] (ix1 j)
      = if j.val < 16 * (kk + 1) then foldFrom (col0 (ix1 j)) (fun r => dRow Pv gx gy gz (r0 + r) j.val) 8 else col0 (ix1 j) := by
  by_cases h1 : j.val < 16 * kk
  · rw [cScr_writes_miss d L f o hin (16 * kk) ho w j (.inl h1), hf j, if_pos h1, if_pos (by omega)]
  by_cases h2 : j.val < 16 * kk + 16
  · obtain ⟨l, hj⟩ : ∃ l : Fin 16, j.val = 16 * kk + l.val :=
      ⟨⟨j.val - 16 * kk, by omega⟩, by show j.val = 16 * kk + (j.val - 16 * kk); omega⟩
    have ej : (⟨16 * kk + l.val, by omega⟩ : Fin 2048) = j := Fin.ext hj.symm
    rw [cScr_writes_hit d L f o hin (16 * kk) ho w j l hj, if_pos (by omega), hj, ← ej]
    exact hw l
  · rw [cScr_writes_miss d L f o hin (16 * kk) ho w j (.inr (by omega)), hf j, if_neg h1, if_neg (by omega)]

end Idx

section Rows

open Idealize.ShloMosaic.ValueIdx

variable (d : Dev nD) (L : grid0.Coords) (Gv : Buf (Elt F) ((thrV d L).loc cc0_scratch0)) (k : Fin k0_t2_loop.trips)

abbrev rowX : Vec F S1x16 .f32 :=
  (gScr).view.readAt (Elt F) (Rect.unit (s := S3x2048) (k0_off3 L k) S1x16.size (k0_off3_inb L k)).toLoadRect Gv
abbrev rowY : Vec F S1x16 .f32 :=
  (gScr).view.readAt (Elt F) (Rect.unit (s := S3x2048) (k0_off4 L k) S1x16.size (k0_off4_inb L k)).toLoadRect Gv
abbrev rowZ : Vec F S1x16 .f32 :=
  (gScr).view.readAt (Elt F) (Rect.unit (s := S3x2048) (k0_off5 L k) S1x16.size (k0_off5_inb L k)).toLoadRect Gv

omit [FloatOps F] in
theorem row_bound (l : Fin 16) : 1024 * (L 0).val + 16 * k.val + l.val < 2048 := by
  have hk : k.val < 64 := Nat.lt_of_lt_of_eq k.isLt k0_t2_trips
  have hh := half_lt L
  omega

omit [FloatOps F] in
theorem scr_idx (c : Fin 3) (l : Fin 16) :
    Gv (ix2 c (⟨1024 * (L 0).val + 16 * k.val + l.val, row_bound L k l⟩ : Fin 2048)) = scrAt Gv c.val (1024 * (L 0).val + (16 * k.val + l.val)) := by
  unfold scrAt
  have hb := row_bound L k l
  refine congrArg Gv (congrArg₂ (ix2 (n0 := 3) (n1 := 2048)) (Fin.ext ?_) (Fin.ext ?_))
  · show c.val = c.val % 3
    exact (Nat.mod_eq_of_lt c.isLt).symm
  · show 1024 * (L 0).val + 16 * k.val + l.val = (1024 * (L 0).val + (16 * k.val + l.val)) % 2048
    rw [Nat.mod_eq_of_lt (by omega)]; omega

omit [FloatOps F] in
theorem rowX_at (l : Fin 16) : rowX d L Gv k (ix2 (0 : Fin 1) l) = gxG d L Gv (16 * k.val + l.val) :=
  (gScr_row_lane d L Gv (k0_off3 L k) (k0_off3_inb L k) (0 : Fin 3) (1024 * (L 0).val + 16 * k.val) (k0_off3_eq L k) l (row_bound L k l)).trans
    (scr_idx d L Gv k 0 l)
omit [FloatOps F] in
theorem rowY_at (l : Fin 16) : rowY d L Gv k (ix2 (0 : Fin 1) l) = gyG d L Gv (16 * k.val + l.val) :=
  (gScr_row_lane d L Gv (k0_off4 L k) (k0_off4_inb L k) (1 : Fin 3) (1024 * (L 0).val + 16 * k.val) (k0_off4_eq L k) l (row_bound L k l)).trans
    (scr_idx d L Gv k 1 l)
omit [FloatOps F] in
theorem rowZ_at (l : Fin 16) : rowZ d L Gv k (ix2 (0 : Fin 1) l) = gzG d L Gv (16 * k.val + l.val) :=
  (gScr_row_lane d L Gv (k0_off5 L k) (k0_off5_inb L k) (2 : Fin 3) (1024 * (L 0).val + 16 * k.val) (k0_off5_eq L k) l (row_bound L k l)).trans
    (scr_idx d L Gv k 2 l)

theorem vX_at (l : Fin 16) : k0_pay27 (rowX d L Gv k) (ix1 l) = gxG d L Gv (16 * k.val + l.val) := (row_lane _ l).trans (rowX_at d L Gv k l)
theorem vY_at (l : Fin 16) : k0_pay28 (rowY d L Gv k) (ix1 l) = gyG d L Gv (16 * k.val + l.val) := (row_lane _ l).trans (rowY_at d L Gv k l)
theorem vZ_at (l : Fin 16) : k0_pay29 (rowZ d L Gv k) (ix1 l) = gzG d L Gv (16 * k.val + l.val) := (row_lane _ l).trans (rowZ_at d L Gv k l)

end Rows

section Inner

open Idealize.ShloMosaic.ValueIdx

variable (d : Dev nD) (L : grid0.Coords)
variable (Gv : Buf (Elt F) ((thrV d L).loc cc0_scratch0)) (Pv : Buf (Elt F) ((thrV d L).loc cc0_scratch1))
variable (col0 : Buf (Elt F) ((thrV d L).loc cc0_scratch2)) (k2 : Fin k0_t2_loop.trips)

def invBlk (k2 r0 kk : Nat) (acc : Acc8 F) : sProp 𝕄 :=
  invInner d L Pv col0 (fun r => gxG d L Gv (16 * k2 + r)) (fun r => gyG d L Gv (16 * k2 + r)) (fun r => gzG d L Gv (16 * k2 + r)) r0 kk acc

/-- Loop step for the first half-block (rows 0–7): sixteen more columns are compared. -/
theorem t3_region (v29 : FVec F S16 .f32) :
    ∀ (k : Fin k0_t3_loop.trips) (acc : Acc8 F),
      invBlk d L Gv Pv col0 k2.val 0 k.val acc
        ⊢ wp frame (wpE (defs₀ (F := F)) 𝒱₀ (thrV d L) none) Set.univ
            (k0_t3_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
              v29 (k0_pay27 (rowX d L Gv k2)) (k0_pay28 (rowY d L Gv k2)) (k0_pay29 (rowZ d L Gv k2)) (k0_pay30 (rowX d L Gv k2)) (k0_pay31 (rowY d L Gv k2)) (k0_pay32 (rowZ d L Gv k2))
              (k0_pay33 (rowX d L Gv k2)) (k0_pay34 (rowY d L Gv k2)) (k0_pay35 (rowZ d L Gv k2)) (k0_pay36 (rowX d L Gv k2)) (k0_pay37 (rowY d L Gv k2)) (k0_pay38 (rowZ d L Gv k2))
              (k0_pay39 (rowX d L Gv k2)) (k0_pay40 (rowY d L Gv k2)) (k0_pay41 (rowZ d L Gv k2)) (k0_pay42 (rowX d L Gv k2)) (k0_pay43 (rowY d L Gv k2)) k acc)
            (invBlk d L Gv Pv col0 k2.val 0 (k.val + 1)) := by
  intro k acc
  obtain ⟨a0, a1, a2, a3, a4, a5, a6, a7⟩ := acc
  unfold invBlk invInner
  iintro ⟨HP, ⟨%f, Hf, %hf⟩, %hacc⟩
  have hk : k.val < 128 := k0_t3_trips ▸ k.isLt

  have hx := pScr_at d L Pv _ (k0_off6_inb k) 0 k.val hk (k0_off6_eq k)
  have hy := pScr_at d L Pv _ (k0_off7_inb k) 1 k.val hk (k0_off7_eq k)
  have hz := pScr_at d L Pv _ (k0_off8_inb k) 2 k.val hk (k0_off8_eq k)
  have hc : ∀ l : Fin 16, (cScr).view.readAt (Elt F) (Rect.unit (s := S2048) (k0_off9 k) S16.size (k0_off9_inb k)).toLoadRect f (ix1 l)
      = col0 (ix1 (⟨16 * k.val + l.val, by omega⟩ : Fin 2048)) := fun l => by
    rw [cScr_chunk_lane d L f _ _ (16 * k.val) (k0_off9_eq k) l (by omega), hf, if_neg (by show ¬ (16 * k.val + l.val < 16 * k.val); omega)]
  sl_unfold [k0_t3_body]
  sl_exec
  sl_step
  isplitl [HP]
  · iexact HP
  isplitl [Hf]
  · iexists _
    isplitl [Hf]
    · iexact Hf
    ipureintro
    sl_unfold_run_names
    exact col_step d L Pv col0 f _ _ _ 0 k.val hk _ _ (k0_off9_eq k) _ hf fun l => by
      simp only [k0_pay54, k0_pay52, k0_pay50, k0_pay48, k0_pay46, k0_pay44, k0_pay13, k0_pay12, k0_pay11, k0_pay10, k0_pay8, k0_pay6,
        k0_pay4, k0_pay3, k0_pay2, k0_pay1, minimumf_at, addf_at, mulf_at, subf_at, broadcast_apply, lane_extract,
        k0_pay43, k0_pay42, k0_pay41, k0_pay40, k0_pay39, k0_pay38, k0_pay37, k0_pay36, k0_pay35, k0_pay34, k0_pay33, k0_pay32, k0_pay31,
        k0_pay30, hx, hy, hz, hc, vX_at, vY_at, vZ_at]
      rfl
  · ipureintro
    intro r l
    sl_unfold_run_names
    rw [minUpTo_succ, ← hacc r l]
    fin_cases r
    all_goals
      simp only [Acc8.get, k0_pay53, k0_pay52, k0_pay51, k0_pay50, k0_pay49, k0_pay48, k0_pay47, k0_pay46, k0_pay45, k0_pay44, k0_pay13,
        k0_pay12, k0_pay11, k0_pay9, k0_pay8, k0_pay7, k0_pay6, k0_pay5, k0_pay4, k0_pay3, k0_pay2, k0_pay1, minimumf_at, addf_at, mulf_at,
        subf_at, broadcast_apply, lane_extract,
        k0_pay43, k0_pay42, k0_pay41, k0_pay40, k0_pay39, k0_pay38, k0_pay37, k0_pay36, k0_pay35, k0_pay34, k0_pay33, k0_pay32, k0_pay31,
        k0_pay30, hx, hy, hz, vX_at, vY_at, vZ_at]
      rfl

/-- Loop step for the second half-block (rows 8–15). -/
theorem t4_region (v29 : FVec F S16 .f32) :
    ∀ (k : Fin k0_t4_loop.trips) (acc : Acc8 F),
      invBlk d L Gv Pv col0 k2.val 8 k.val acc
        ⊢ wp frame (wpE (defs₀ (F := F)) 𝒱₀ (thrV d L) none) Set.univ
            (k0_t4_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
              v29 (k0_pay27 (rowX d L Gv k2)) (k0_pay28 (rowY d L Gv k2)) (k0_pay29 (rowZ d L Gv k2)) (k0_pay55 (k0_pay27 (rowX d L Gv k2))) (k0_pay56 (k0_pay28 (rowY d L Gv k2))) (k0_pay57 (k0_pay29 (rowZ d L Gv k2)))
              (k0_pay58 (k0_pay27 (rowX d L Gv k2))) (k0_pay59 (k0_pay28 (rowY d L Gv k2))) (k0_pay60 (k0_pay29 (rowZ d L Gv k2))) (k0_pay61 (k0_pay27 (rowX d L Gv k2))) (k0_pay62 (k0_pay28 (rowY d L Gv k2))) (k0_pay63 (k0_pay29 (rowZ d L Gv k2)))
              (k0_pay64 (k0_pay27 (rowX d L Gv k2))) (k0_pay65 (k0_pay28 (rowY d L Gv k2))) (k0_pay66 (k0_pay29 (rowZ d L Gv k2))) k acc)
            (invBlk d L Gv Pv col0 k2.val 8 (k.val + 1)) := by
  intro k acc
  obtain ⟨a0, a1, a2, a3, a4, a5, a6, a7⟩ := acc
  unfold invBlk invInner
  iintro ⟨HP, ⟨%f, Hf, %hf⟩, %hacc⟩
  have hk : k.val < 128 := k0_t4_trips ▸ k.isLt

  have hx := pScr_at d L Pv _ (k0_off10_inb k) 0 k.val hk (k0_off10_eq k)
  have hy := pScr_at d L Pv _ (k0_off11_inb k) 1 k.val hk (k0_off11_eq k)
  have hz := pScr_at d L Pv _ (k0_off12_inb k) 2 k.val hk (k0_off12_eq k)
  have hc : ∀ l : Fin 16, (cScr).view.readAt (Elt F) (Rect.unit (s := S2048) (k0_off13 k) S16.size (k0_off13_inb k)).toLoadRect f (ix1 l)
      = col0 (ix1 (⟨16 * k.val + l.val, by omega⟩ : Fin 2048)) := fun l => by
    rw [cScr_chunk_lane d L f _ _ (16 * k.val) (k0_off13_eq k) l (by omega), hf, if_neg (by show ¬ (16 * k.val + l.val < 16 * k.val); omega)]
  sl_unfold [k0_t4_body]
  sl_exec
  sl_step
  isplitl [HP]
  · iexact HP
  isplitl [Hf]
  · iexists _
    isplitl [Hf]
    · iexact Hf
    ipureintro
    sl_unfold_run_names
    exact col_step d L Pv col0 f _ _ _ 8 k.val hk _ _ (k0_off13_eq k) _ hf fun l => by
      simp only [k0_pay78, k0_pay76, k0_pay74, k0_pay72, k0_pay70, k0_pay68, k0_pay67, k0_pay26, k0_pay25, k0_pay24, k0_pay23, k0_pay21,
        k0_pay19, k0_pay17, k0_pay16, k0_pay15, k0_pay14, minimumf_at, addf_at, mulf_at, subf_at, broadcast_apply, lane_extract,
        k0_pay66, k0_pay65, k0_pay64, k0_pay63, k0_pay62, k0_pay61, k0_pay60, k0_pay59, k0_pay58, k0_pay57, k0_pay56, k0_pay55,
        hx, hy, hz, hc, vX_at, vY_at, vZ_at]
      rfl
  · ipureintro
    intro r l
    sl_unfold_run_names
    rw [minUpTo_succ, ← hacc r l]
    fin_cases r
    all_goals
      simp only [Acc8.get, k0_pay77, k0_pay76, k0_pay75, k0_pay74, k0_pay73, k0_pay72, k0_pay71, k0_pay70, k0_pay69, k0_pay68, k0_pay67,
        k0_pay26, k0_pay25, k0_pay24, k0_pay22, k0_pay21, k0_pay20, k0_pay19, k0_pay18, k0_pay17, k0_pay16, k0_pay15, k0_pay14,
        minimumf_at, addf_at, mulf_at, subf_at, broadcast_apply, lane_extract,
        k0_pay66, k0_pay65, k0_pay64, k0_pay63, k0_pay62, k0_pay61, k0_pay60, k0_pay59, k0_pay58, k0_pay57, k0_pay56, k0_pay55,
        hx, hy, hz, vX_at, vY_at, vZ_at]
      rfl

end Inner

end Cert.Proof.ChamferIdeal

end
-- ==== Proof.Gather.lean ====
import proofs.«204275_g83442624626996_cont_9to1c4b_244_10_alg».proof.Proof.Gen.KernelIdeal
import Idealize.ShloMosaic.Lib.SparseCore
import Idealize.ShloMosaic.Lib.ValueIdx
import Idealize.ShloMosaic.Lib.ValueLayout

namespace Cert.Proof.ChamferIdeal

open Idealize.ShloMosaic Idealize.ShloMosaic.ValueIdx Cert.KernelIdeal Cert.KernelIdeal.Gen

variable {F : FTy → Type} [FloatOps F]

theorem iota_lane (l : Fin 16) :
    (iota .scVector S16 32 [0] iota_S16_d0_w32_scVector : IVec S16 32) (ix1 l) = BitVec.ofNat 32 l.val := by
  show BitVec.ofNat 32 (0 * 16 + l.val) = BitVec.ofNat 32 l.val
  rw [Nat.zero_mul, Nat.zero_add]

theorem iota_lane_toNat (l : Fin 16) :
    ((iota .scVector S16 32 [0] iota_S16_d0_w32_scVector : IVec S16 32) (ix1 l)).toNat = l.val := by
  rw [iota_lane, BitVec.toNat_ofNat]
  exact Nat.mod_eq_of_lt (by omega)

theorem idx_inb (c : BitVec 32) (hc : c.toNat < 16) :
    ∀ a x, ((![iota .scVector S16 32 [0] iota_S16_d0_w32_scVector, broadcast S16 c] : Fin 2 → IVec S16 32) a x).toNat < S16x16.size a := by
  intro a x
  match a with
  | ⟨0, _⟩ =>
    show ((iota .scVector S16 32 [0] iota_S16_d0_w32_scVector : IVec S16 32) x).toNat < 16
    obtain ⟨l, rfl⟩ : ∃ l : Fin 16, x = ix1 l := ⟨x 0, eq_ix1 x⟩
    rw [iota_lane_toNat]
    exact l.isLt
  | ⟨1, _⟩ =>
    show c.toNat < 16
    exact hc

theorem gather_lane {e : EltTy} (g : Vec F S16x16 e) (c : BitVec 32) (hc : c.toNat < 16)
    (h : ∀ a x, ((![iota .scVector S16 32 [0] iota_S16_d0_w32_scVector, broadcast S16 c] : Fin 2 → IVec S16 32) a x).toNat < S16x16.size a)
    (l : Fin 16) :
    loadIdx g ![iota .scVector S16 32 [0] iota_S16_d0_w32_scVector, broadcast S16 c] h (ix1 l) = g (ix2 l (⟨c.toNat, hc⟩ : Fin 16)) := by
  show g (idxAt _ h (ix1 l)) = g (ix2 l (⟨c.toNat, hc⟩ : Fin 16))
  congr 1
  funext a
  match a with
  | ⟨0, _⟩ => exact Fin.ext (iota_lane_toNat l)
  | ⟨1, _⟩ => rfl

end Cert.Proof.ChamferIdeal
-- ==== Proof.OuterTrip.lean ====
import proofs.«204275_g83442624626996_cont_9to1c4b_244_10_alg».proof.Proof.InnerLoops
import proofs.«204275_g83442624626996_cont_9to1c4b_244_10_alg».proof.Proof.PayLane
import proofs.«204275_g83442624626996_cont_9to1c4b_244_10_alg».proof.Proof.Offsets
import proofs.«204275_g83442624626996_cont_9to1c4b_244_10_alg».proof.Proof.Gather
import proofs.«204275_g83442624626996_cont_9to1c4b_244_10_alg».proof.Proof.ScratchIdx
import proofs.«204275_g83442624626996_cont_9to1c4b_244_10_alg».proof.Proof.TileFinal

noncomputable section

namespace Cert.Proof.ChamferIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

section Outer

open Idealize.ShloMosaic.ValueIdx

variable (d : Dev nD) (L : grid0.Coords)
variable (Gv : Buf (Elt F) ((thrV d L).loc cc0_scratch0)) (Pv : Buf (Elt F) ((thrV d L).loc cc0_scratch1))

theorem fold_two_blocks (f : Nat → F .f32) (n : Nat) :
    foldFrom (foldFrom (minUpTo f n) (fun r => f (n + (0 + r))) 8) (fun r => f (n + (8 + r))) 8 = minUpTo f (n + 16) := rfl

omit [FloatOps F] in
theorem trips3 : Scf.trips k0_t3_loop.lb k0_t3_loop.ub k0_t3_loop.st = 128 := k0_t3_trips
omit [FloatOps F] in
theorem trips4 : Scf.trips k0_t4_loop.lb k0_t4_loop.ub k0_t4_loop.st = 128 := k0_t4_trips

/-- Outer loop step: after both half-block loops the 16 × 16 table of partial minima is reduced along its rows. -/
theorem t2_region (v28 v32 : BitVec 32) : ∀ (k : Fin k0_t2_loop.trips) (acc : BitVec 32),
    inv2 d L Gv Pv k.val acc
      ⊢ wp frame (wpE (defs₀ (F := F)) 𝒱₀ (thrV d L) none) Set.univ
          (k0_t2_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
            v28 v32 (iota .scVector S16 32 [0] iota_S16_d0_w32_scVector) k acc)
          (inv2 d L Gv Pv (k.val + 1)) := by
  intro k acc
  unfold inv2
  iintro ⟨HG, HP, ⟨%fc, Hc, %hfc⟩, ⟨%fr, Hr, %hfr⟩, ⟨%fa, Ha⟩⟩
  sl_exec
  sl_for (invBlk d L Gv Pv fc k.val 0) $$ [HP Hc]
  case region =>
    exact t3_region d L Gv Pv fc k _
  · unfold invBlk invInner
    isplitl [HP]; · iexact HP
    isplitl [Hc]
    · iexists fc; isplitl [Hc]; · iexact Hc
      ipureintro; intro j; simp
    · ipureintro; intro r l; fin_cases r <;> rfl
  iintro %acc3 HI
  unfold invBlk invInner
  icases HI with ⟨HP, ⟨%fc3, Hc, %hfc3⟩, %hacc3⟩
  sl_exec
  sl_for (invBlk d L Gv Pv fc3 k.val 8) $$ [HP Hc]
  case region =>
    exact t4_region d L Gv Pv fc3 k _
  · unfold invBlk invInner
    isplitl [HP]; · iexact HP
    isplitl [Hc]
    · iexists fc3; isplitl [Hc]; · iexact Hc
      ipureintro; intro j; simp
    · ipureintro; intro r l; fin_cases r <;> rfl
  iintro %acc4 HI
  unfold invBlk invInner
  icases HI with ⟨HP, ⟨%fc4, Hc, %hfc4⟩, %hacc4⟩
  have hc1 : k0_chk1 _ _ := idx_inb 0#32 (by decide)
  have hc2 : k0_chk2 _ _ := idx_inb 1#32 (by decide)
  have hc3 : k0_chk3 _ _ := idx_inb 2#32 (by decide)
  have hc4 : k0_chk4 _ _ := idx_inb 3#32 (by decide)
  have hc5 : k0_chk5 _ _ := idx_inb 4#32 (by decide)
  have hc6 : k0_chk6 _ _ := idx_inb 5#32 (by decide)
  have hc7 : k0_chk7 _ _ := idx_inb 6#32 (by decide)
  have hc8 : k0_chk8 _ _ := idx_inb 7#32 (by decide)
  have hc9 : k0_chk9 _ _ := idx_inb 8#32 (by decide)
  have hc10 : k0_chk10 _ _ := idx_inb 9#32 (by decide)
  have hc11 : k0_chk11 _ _ := idx_inb 10#32 (by decide)
  have hc12 : k0_chk12 _ _ := idx_inb 11#32 (by decide)
  have hc13 : k0_chk13 _ _ := idx_inb 12#32 (by decide)
  have hc14 : k0_chk14 _ _ := idx_inb 13#32 (by decide)
  have hc15 : k0_chk15 _ _ := idx_inb 14#32 (by decide)
  have hc16 : k0_chk16 _ _ := idx_inb 15#32 (by decide)
  sl_exec
  iterate 16 (iapply (SparseCore.wp_vectorLoadIdx 𝒱₀ (thrV d L) none Set.univ (base := aScr) (S := Finset.univ) (q := fullShare) (Finset.subset_univ _)) $$ Ha; iintro Ha; sl_exec)
  sl_step
  isplitl [HG]; · iexact HG
  isplitl [HP]; · iexact HP
  isplitl [Hc]
  · iexists fc4; isplitl [Hc]; · iexact Hc
    ipureintro; intro j
    have hj := j.isLt
    rw [hfc4 j, if_pos (by rw [trips4]; omega), hfc3 j, if_pos (by rw [trips3]; omega), hfc j]
    exact fold_two_blocks (fun r => dRow Pv (gxG d L Gv) (gyG d L Gv) (gzG d L Gv) r j.val) (16 * k.val)
  isplitl [Hr]
  · iexists _; isplitl [Hr]; · iexact Hr
    ipureintro; intro i hi
    sl_unfold_run_names
    rw [rScr_writes_at d L fr (k0_off14 k) (k0_off14_inb k) (16 * k.val) (k0_off14_eq k)]
    by_cases h : 16 * k.val ≤ i.val ∧ i.val < 16 * k.val + 16
    · rw [dif_pos h]
      generalize hA : aScr.view.writes (Elt F) fa _ = A
      generalize hq : (⟨i.val - 16 * k.val, _⟩ : Fin 16) = ln
      have hv : i.val = 16 * k.val + ln.val := by
        have := congrArg Fin.val hq; simp only at this; omega
      simp only [trips3] at hacc3
      simp only [trips4] at hacc4

      have hrow : ∀ c : Fin 16, View.read (Elt F) ((aScr : Memref sig .scVector .vmem S16x16 .f32).access (Rect.whole S16x16)) A (ix2 ln c)
          = minUpTo (fun cc => dRow Pv (gxG d L Gv) (gyG d L Gv) (gzG d L Gv) (16 * k.val + ln.val) (16 * cc + c.val)) 128 := by
        intro c
        subst hA
        refine (aScr_rows fa (fun r : Fin 16 => match r with | 0 => acc3.1 | 1 => acc3.2.1 | 2 => acc3.2.2.1 | 3 => acc3.2.2.2.1 | 4 => acc3.2.2.2.2.1 | 5 => acc3.2.2.2.2.2.1 | 6 => acc3.2.2.2.2.2.2.1 | 7 => acc3.2.2.2.2.2.2.2 | 8 => acc4.1 | 9 => acc4.2.1 | 10 => acc4.2.2.1 | 11 => acc4.2.2.2.1 | 12 => acc4.2.2.2.2.1 | 13 => acc4.2.2.2.2.2.1 | 14 => acc4.2.2.2.2.2.2.1 | _ => acc4.2.2.2.2.2.2.2) ln c).trans ?_
        fin_cases ln
        · exact hacc3 0 c
        · exact hacc3 1 c
        · exact hacc3 2 c
        · exact hacc3 3 c
        · exact hacc3 4 c
        · exact hacc3 5 c
        · exact hacc3 6 c
        · exact hacc3 7 c
        · exact hacc4 0 c
        · exact hacc4 1 c
        · exact hacc4 2 c
        · exact hacc4 3 c
        · exact hacc4 4 c
        · exact hacc4 5 c
        · exact hacc4 6 c
        · exact hacc4 7 c

      have leaf : ∀ (c : BitVec 32) (hc : c.toNat < 16) (hh : ∀ a x, ((![iota .scVector S16 32 [0] iota_S16_d0_w32_scVector, broadcast S16 c] : Fin 2 → IVec S16 32) a x).toNat < S16x16.size a),
          loadIdx (View.read (Elt F) ((aScr : Memref sig .scVector .vmem S16x16 .f32).access (Rect.whole S16x16)) A) ![iota .scVector S16 32 [0] iota_S16_d0_w32_scVector, broadcast S16 c] hh (ix1 ln)
            = minUpTo (fun cc => dRow Pv (gxG d L Gv) (gyG d L Gv) (gzG d L Gv) (16 * k.val + ln.val) (16 * cc + c.toNat)) 128 :=
        fun c hc hh => (gather_lane _ c hc hh ln).trans (hrow ⟨c.toNat, hc⟩)
      rw [hv]
      unfold rowVal
      simp only [tree16, k0_pay79, minimumf_at]
      rw [leaf 0#32 (by decide), leaf 1#32 (by decide), leaf 2#32 (by decide), leaf 3#32 (by decide), leaf 4#32 (by decide), leaf 5#32 (by decide), leaf 6#32 (by decide), leaf 7#32 (by decide), leaf 8#32 (by decide), leaf 9#32 (by decide), leaf 10#32 (by decide), leaf 11#32 (by decide), leaf 12#32 (by decide), leaf 13#32 (by decide), leaf 14#32 (by decide), leaf 15#32 (by decide)]
      rfl
    · rw [dif_neg h]; exact hfr i (by omega)
  · iexists _; iexact Ha

end Outer

end Cert.Proof.ChamferIdeal

end
-- ==== Proof.ExitMath.lean ====
import proofs.«204275_g83442624626996_cont_9to1c4b_244_10_alg».proof.Proof.TileFinal
import proofs.«204275_g83442624626996_cont_9to1c4b_244_10_alg».proof.Proof.ScratchIdx
import proofs.«204275_g83442624626996_cont_9to1c4b_244_10_alg».proof.Proof.TileInv

noncomputable section

namespace Cert.Proof.ChamferIdeal

open Cert.KernelIdeal Cert.KernelIdeal.Gen

open Idealize.ShloMosaic
open Idealize.SL.Sem
open Cert.Chamfer
open Idealize.ShloMosaic.ValueIdx

variable {F : FTy → Type} [FloatOps F]

variable (m : (ℓ : Loc nD τ sig) → Buf (Elt F) ℓ) (d : Dev nD) (L : grid0.Coords)

theorem slab_idx (k : Fin 3) (n : Fin 2048) :
    (Rect.unit (s := S16x3x2048) (k0_off1 L) S1x3x2048.size (k0_off1_inb L)).emb
        (Shape.reshapeEquiv squeezes_S1x3x2048_S3x2048.numel_eq (ix2 k n))
      = ix3 (⟨(L 1).val, sub_lt L⟩ : Fin 16) k n := by
  rw [reshapeEquiv_ix2_1ab]
  have ho := k0_off1_eq L
  funext a
  match a with
  | ⟨0, _⟩ => exact Fin.ext (by show k0_off1 L 0 + 1 * 0 = (L 1).val; rw [ho]; show (L 1).val + 1 * 0 = (L 1).val; omega)
  | ⟨1, _⟩ => exact Fin.ext (by show k0_off1 L 1 + 1 * k.val = k.val; rw [ho]; show 0 + 1 * k.val = k.val; omega)
  | ⟨2, _⟩ => exact Fin.ext (by show k0_off1 L 2 + 1 * n.val = n.val; rw [ho]; show 0 + 1 * n.val = n.val; omega)

theorem landed_G (k : Fin 3) (n : Fin 2048) :
    (ReadAs.same.apply (View.read (Elt F) (gSl L).view (G0 m d))) (ix2 k n)
      = G0 m d (ix3 (⟨(L 1).val, sub_lt L⟩ : Fin 16) k n) :=
  congrArg (G0 m d) (slab_idx L k n)

theorem landed_P (k : Fin 3) (n : Fin 2048) :
    (ReadAs.same.apply (View.read (Elt F) (pSl L).view (P0 m d))) (ix2 k n)
      = P0 m d (ix3 (⟨(L 1).val, sub_lt L⟩ : Fin 16) k n) :=
  congrArg (P0 m d) (slab_idx L k n)

private theorem ix1_eta {n : Nat} (x : (⟨1, ![n]⟩ : Shape).Idx) : x = ix1 (x 0) :=
  funext fun a => match a with | ⟨0, _⟩ => rfl

private theorem rSl_emb (b : Fin 1024) :
    (rSl L).view.emb (ix1 b) = ix2 (⟨2 * (L 1).val + (L 0).val, by have := sub_lt L; have := half_lt L; omega⟩ : Fin 32) b := by
  show (Rect.unit (s := S32x1024) (k0_off15 L) S1x1024.size (k0_off15_inb L)).emb
      (Shape.reshapeEquiv squeezes_S1x1024_S1024.numel_eq (ix1 b)) = _
  rw [Shape.reshapeEquiv_cons_one]
  have ho := k0_off15_eq L
  funext a
  match a with
  | ⟨0, _⟩ => exact Fin.ext (by show k0_off15 L 0 + 1 * 0 = 2 * (L 1).val + (L 0).val; rw [ho]; show 2 * (L 1).val + (L 0).val + 1 * 0 = _; omega)
  | ⟨1, _⟩ => exact Fin.ext (by show k0_off15 L 1 + 1 * b.val = b.val; rw [ho]; show 0 + 1 * b.val = b.val; omega)

private theorem cSl_emb (b : Fin 2048) :
    (cSl L).view.emb (ix1 b) = ix2 (⟨2 * (L 1).val + (L 0).val, by have := sub_lt L; have := half_lt L; omega⟩ : Fin 32) b := by
  show (Rect.unit (s := S32x2048) (k0_off16 L) S1x2048.size (k0_off16_inb L)).emb
      (Shape.reshapeEquiv squeezes_S1x2048_S2048.numel_eq (ix1 b)) = _
  rw [Shape.reshapeEquiv_cons_one]
  have ho := k0_off16_eq L
  funext a
  match a with
  | ⟨0, _⟩ => exact Fin.ext (by show k0_off16 L 0 + 1 * 0 = 2 * (L 1).val + (L 0).val; rw [ho]; show 2 * (L 1).val + (L 0).val + 1 * 0 = _; omega)
  | ⟨1, _⟩ => exact Fin.ext (by show k0_off16 L 1 + 1 * b.val = b.val; rw [ho]; show 0 + 1 * b.val = b.val; omega)

theorem rows_exit (fr : Buf (Elt F) (rLoc d)) (frF : Buf (Elt F) ((thrV d L).loc cc0_scratch3))
    (hrF : ∀ i : Fin 1024, frF (ix1 i)
      = rowVal d L (ReadAs.same.apply (View.read (Elt F) (gSl L).view (G0 m d)))
          (ReadAs.same.apply (View.read (Elt F) (pSl L).view (P0 m d))) i.val) :
    ∀ i ∈ (rSl L).view.set,
      ((rSl L).view.writes (Elt F) fr [⟨Rect.whole S1024, ReadAs.same.apply (View.read (Elt F) rScr.view frF)⟩]) i
        = R1 m d i := by
  intro i hi
  obtain ⟨x, -, rfl⟩ := Finset.mem_map.mp hi
  obtain ⟨b, rfl⟩ : ∃ b : Fin 1024, x = ix1 b := ⟨x 0, ix1_eta x⟩

  have hw := congrFun (View.read_writes_whole (rSl L).view fr (ReadAs.same.apply (View.read (Elt F) rScr.view frF))) (ix1 b)
  rw [View.read_apply] at hw
  have hw' : ((rSl L).view.writes (Elt F) fr [⟨Rect.whole S1024, ReadAs.same.apply (View.read (Elt F) rScr.view frF)⟩])
      ((rSl L).view.emb (ix1 b)) = ReadAs.same.apply (View.read (Elt F) rScr.view frF) (ix1 b) :=
    eq_of_heq (cast_eq_iff_heq.mp hw)
  have e2 : ReadAs.same.apply (View.read (Elt F) rScr.view frF) (ix1 b) = frF (ix1 b) := rfl

  have hr : frF (ix1 b) = R1 m d ((rSl L).view.emb (ix1 b)) := by
    rw [rSl_emb, hrF, rowVal_eq d L (G0 m d) (P0 m d) _ _ (landed_G m d L) (landed_P m d L)]
    rfl
  exact hw'.trans (e2.trans hr)

theorem cols_exit (fc : Buf (Elt F) (cLoc d)) (fcF : Buf (Elt F) ((thrV d L).loc cc0_scratch2))
    (hcF : ∀ j : Fin 2048, fcF (ix1 j)
      = colVal d L (ReadAs.same.apply (View.read (Elt F) (gSl L).view (G0 m d)))
          (ReadAs.same.apply (View.read (Elt F) (pSl L).view (P0 m d))) 1024 j.val) :
    ∀ i ∈ (cSl L).view.set,
      ((cSl L).view.writes (Elt F) fc [⟨Rect.whole S2048, ReadAs.same.apply (View.read (Elt F) cScr.view fcF)⟩]) i
        = C1 m d i := by
  intro i hi
  obtain ⟨x, -, rfl⟩ := Finset.mem_map.mp hi
  obtain ⟨b, rfl⟩ : ∃ b : Fin 2048, x = ix1 b := ⟨x 0, ix1_eta x⟩

  have hw := congrFun (View.read_writes_whole (cSl L).view fc (ReadAs.same.apply (View.read (Elt F) cScr.view fcF))) (ix1 b)
  rw [View.read_apply] at hw
  have hw' : ((cSl L).view.writes (Elt F) fc [⟨Rect.whole S2048, ReadAs.same.apply (View.read (Elt F) cScr.view fcF)⟩])
      ((cSl L).view.emb (ix1 b)) = ReadAs.same.apply (View.read (Elt F) cScr.view fcF) (ix1 b) :=
    eq_of_heq (cast_eq_iff_heq.mp hw)
  have e2 : ReadAs.same.apply (View.read (Elt F) cScr.view fcF) (ix1 b) = fcF (ix1 b) := rfl

  have hr : fcF (ix1 b) = C1 m d ((cSl L).view.emb (ix1 b)) := by
    rw [cSl_emb, hcF, colVal_eq d L (G0 m d) (P0 m d) _ _ (landed_G m d L) (landed_P m d L)]
    rfl
  exact hw'.trans (e2.trans hr)

end Cert.Proof.ChamferIdeal

end
-- ==== Proof.TileBody.lean ====
import proofs.«204275_g83442624626996_cont_9to1c4b_244_10_alg».proof.Proof.OuterTrip
import proofs.«204275_g83442624626996_cont_9to1c4b_244_10_alg».proof.Proof.TileFinal
import proofs.«204275_g83442624626996_cont_9to1c4b_244_10_alg».proof.Proof.ExitMath

noncomputable section

namespace Cert.Proof.ChamferIdeal

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable (m : (ℓ : Loc nD τ sig) → Buf (Elt F) ℓ)
variable [FloatOps F]

section Tile

open Idealize.ShloMosaic.ValueIdx

variable (d : Dev nD) (L : grid0.Coords)

theorem pts_gSl (q : PosShare TreeShare) (f : Buf (Elt F) (gLoc d)) :
    ((gSl L).view.loc (thrV d L) ↦[(gSl L).view.set]{q} f : sProp 𝕄) = gLoc d ↦[gSet (sL L)]{q} f := by rw [set_gSl]
theorem pts_pSl (q : PosShare TreeShare) (f : Buf (Elt F) (pLoc d)) :
    ((pSl L).view.loc (thrV d L) ↦[(pSl L).view.set]{q} f : sProp 𝕄) = pLoc d ↦[gSet (sL L)]{q} f := by rw [set_pSl]
theorem pts_rSl (f : Buf (Elt F) (rLoc d)) :
    ((rSl L).view.loc (thrV d L) ↦[(rSl L).view.set]{fullShare} f : sProp 𝕄) = rLoc d ↦[rSet (wid (cL L) (sL L))]{fullShare} f := by rw [set_rSl]
theorem pts_cSl (f : Buf (Elt F) (cLoc d)) :
    ((cSl L).view.loc (thrV d L) ↦[(cSl L).view.set]{fullShare} f : sProp 𝕄) = cLoc d ↦[cSet (wid (cL L) (sL L))]{fullShare} f := by rw [set_cSl]
theorem pts_whole (b : Ref sig .scVector) (f : Buf (Elt F) ((thrV d L).loc b)) :
    ((Memref.whole b).view.loc (thrV d L) ↦{fullShare} f : sProp 𝕄) = (thrV d L).loc b ↦{fullShare} f := rfl

def inv1 (k : Nat) (_ : BitVec 32) : sProp 𝕄 :=
  iprop(∃ f, ((cScr).view.loc (thrV d L) ↦{fullShare} f) ∗ ⌜∀ j : Fin 2048, j.val < 16 * k → f (ix1 j) = posInf⌝)

theorem t1_region (v28 : BitVec 32) : ∀ (k : Fin k0_t1_loop.trips) (acc : BitVec 32),
    inv1 (F := F) d L k.val acc
      ⊢ wp frame (wpE (defs₀ (F := F)) 𝒱₀ (thrV d L) none) Set.univ
          (k0_t1_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3 v28 k acc)
          (inv1 (F := F) d L (k.val + 1)) := by
  intro k acc
  unfold inv1
  iintro ⟨%f, Hf, %hf⟩
  sl_exec
  sl_step
  iexists _; isplitl [Hf]; · iexact Hf
  ipureintro; intro j hj
  rw [cScr_writes_at d L f (k0_off2 k) (k0_off2_inb k) (16 * k.val) (k0_off2_eq k) k0_pay80 j]
  by_cases h : 16 * k.val ≤ j.val ∧ j.val < 16 * k.val + 16
  · rw [dif_pos h]; rfl
  · rw [dif_neg h]; exact hf j (by omega)

omit [FloatOps F] in
theorem trips1 : Scf.trips k0_t1_loop.lb k0_t1_loop.ub k0_t1_loop.st = 128 := k0_t1_trips
omit [FloatOps F] in
theorem trips2 : Scf.trips k0_t2_loop.lb k0_t2_loop.ub k0_t2_loop.st = 64 := k0_t2_trips

/-- A subcore's task computes the row and column minima assigned to it. -/
theorem tile_body : TileBody (F := F) m := by
  intro d L O W hO
  unfold tileGo tileTd
  simp only [tileProg, cc0__chamfer_body_eq_skeleton]; unfold cc0__chamfer_body_skel
  rw [(K (F := F)).scopedBufs_V facts d (cV L) (jV L), SparseCore.Cfg.scopedSems0_V (Val := Elt F) d (cV L) (jV L), ownSems0_V, ownBufs_V]
  iintro ⟨#Hlv, -, ⟨Hg, Hp, ⟨%fr, Hr⟩, ⟨%fc, Hc⟩⟩, ⟨⟨%f0, Hs0⟩, ⟨%f1, Hs1⟩, ⟨%f2, Hs2⟩, ⟨%f3, Hs3⟩, ⟨%f4, Hs4⟩, Hbufs⟩, ⟨Hsem0, Hsem1, Hsem2, Hsem3, Hsems⟩, HO⟩
  ihave Hmw := ((K (F := F)).mayWaits_none (thr := thrV d L) hO) $$ Hlv
  ihave Hg' := (Entails.of_eq (pts_gSl (F := F) d L _ _).symm) $$ Hg
  ihave Hp' := (Entails.of_eq (pts_pSl (F := F) d L _ _).symm) $$ Hp
  ihave Hr' := (Entails.of_eq (pts_rSl (F := F) d L _).symm) $$ Hr
  ihave Hc' := (Entails.of_eq (pts_cSl (F := F) d L _).symm) $$ Hc
  ihave Hs0' := (Entails.of_eq (pts_whole (F := F) d L cc0_scratch0 _).symm) $$ Hs0
  ihave Hs1' := (Entails.of_eq (pts_whole (F := F) d L cc0_scratch1 _).symm) $$ Hs1
  ihave Hs2' := (Entails.of_eq (pts_whole (F := F) d L cc0_scratch2 _).symm) $$ Hs2
  ihave Hs3' := (Entails.of_eq (pts_whole (F := F) d L cc0_scratch3 _).symm) $$ Hs3
  ihave Hs4' := (Entails.of_eq (pts_whole (F := F) d L cc0_scratch4 _).symm) $$ Hs4
  sl_exec
  sl_unfold_run_names
  rw [View.write_whole_univ, View.write_whole_univ]
  sl_for (inv1 (F := F) d L) $$ [Hs2']
  case region => exact t1_region d L _
  · unfold inv1
    iexists f2; isplitl [Hs2']; · iexact Hs2'
    ipureintro; intro j hj; omega
  iintro %acc1 HI
  unfold inv1
  icases HI with ⟨%fcol, Hcol, %hcol⟩
  sl_exec
  sl_for (inv2 (F := F) d L (ReadAs.same.apply ((gSl L).view.read (Elt F) (G0 m d))) (ReadAs.same.apply ((pSl L).view.read (Elt F) (P0 m d)))) $$ [Hs0' Hs1' Hcol Hs3' Hs4']
  case region => exact t2_region d L _ _ _ _
  · unfold inv2
    isplitl [Hs0']; · iexact Hs0'
    isplitl [Hs1']; · iexact Hs1'
    isplitl [Hcol]
    · iexists fcol; isplitl [Hcol]; · iexact Hcol
      ipureintro; intro j
      have hj := j.isLt
      rw [hcol j (by rw [trips1]; omega)]; rfl
    isplitl [Hs3']
    · iexists f3; isplitl [Hs3']; · iexact Hs3'
      ipureintro; intro i hi; omega
    · iexists f4; iexact Hs4'
  iintro %acc2 HI
  unfold inv2
  icases HI with ⟨HG, HP, ⟨%fcF, HcF, %hcF⟩, ⟨%frF, HrF, %hrF⟩, ⟨%faF, HaF⟩⟩
  sl_exec
  sl_step
  sl_unfold_run_names
  have hrows : ∀ i : Fin 1024, frF (ix1 i) = rowVal d L (ReadAs.same.apply ((gSl L).view.read (Elt F) (G0 m d))) (ReadAs.same.apply ((pSl L).view.read (Elt F) (P0 m d))) i.val :=
    fun i => hrF i (by have := i.isLt; rw [trips2]; omega)
  have hcols : ∀ j : Fin 2048, fcF (ix1 j) = colVal d L (ReadAs.same.apply ((gSl L).view.read (Elt F) (G0 m d))) (ReadAs.same.apply ((pSl L).view.read (Elt F) (P0 m d))) 1024 j.val := by
    intro j; have := hcF j; rw [trips2] at this; exact this
  isplitl [Hg' Hp' Hr' Hc']
  · isplitl [Hg']; · iapply (Entails.of_eq (pts_gSl (F := F) d L _ _)); iexact Hg'
    isplitl [Hp']; · iapply (Entails.of_eq (pts_pSl (F := F) d L _ _)); iexact Hp'
    isplitl [Hr']
    · iapply (Entails.of_eq (pts_rSl (F := F) d L _))
      iapply (Entails.of_eq (pointsTo_congr (rows_exit m d L fr frF hrows)))
      iexact Hr'
    · iapply (Entails.of_eq (pts_cSl (F := F) d L _))
      iapply (Entails.of_eq (pointsTo_congr (cols_exit m d L fc fcF hcols)))
      iexact Hc'
  isplitl [HG HP HcF HrF HaF Hbufs]
  · isplitl [HG]; · iexists _; iexact HG
    isplitl [HP]; · iexists _; iexact HP
    isplitl [HcF]; · iexists _; iexact HcF
    isplitl [HrF]; · iexists _; iexact HrF
    isplitl [HaF]; · iexists _; iexact HaF
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.ChamferIdeal

end
-- ==== Proof.Launch.lean ====
import proofs.«204275_g83442624626996_cont_9to1c4b_244_10_alg».proof.Proof.Setup

noncomputable section

namespace Cert.Proof.ChamferIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Chamfer

variable {F : FTy → Type}

local notation "𝕄" => MM F

variable (m : (ℓ : Loc nD τ sig) → Buf (Elt F) ℓ) (ρ : Dev nD → PrngReg)
variable [FloatOps F]

theorem P_st (d : Dev nD) (c : Fin ((K (F := F)).nCore 0)) :
    (P (F := F) m).st 0 d c = bigSep Finset.univ fun s : Fin 16 => tileGo m d (Fin.cast nCore_zero c) s := rfl
theorem P_dn (d : Dev nD) (c : Fin ((K (F := F)).nCore 0)) :
    (P (F := F) m).dn 0 d c = bigSep Finset.univ fun s : Fin 16 => tileTd m d (Fin.cast nCore_zero c) s := rfl
theorem P_go (d : Dev nD) (c : Fin ((K (F := F)).nCore 0)) (i : Fin ((K (F := F)).nSub 0)) :
    (P (F := F) m).go 0 d c i = tileGo m d (Fin.cast nCore_zero c) (Fin.cast nSub_zero i) := rfl
theorem P_td (d : Dev nD) (c : Fin ((K (F := F)).nCore 0)) (i : Fin ((K (F := F)).nSub 0)) :
    (P (F := F) m).td 0 d c i = tileTd m d (Fin.cast nCore_zero c) (Fin.cast nSub_zero i) := rfl
theorem P_x (q : Fin 1) (thr : Thread nD τ) : (P (F := F) m).x q thr = iprop(emp) := rfl

instance tileGo_storable (d : Dev nD) (c : Fin 2) (s : Fin 16) : BI.Storable (upEmb : UEmb _ 𝕄) (tileGo m d c s) := by
  unfold tileGo; infer_instance
instance tileTd_storable (d : Dev nD) (c : Fin 2) (s : Fin 16) : BI.Storable (upEmb : UEmb _ 𝕄) (tileTd m d c s) := by
  unfold tileTd; infer_instance

instance P_storable : (P (F := F) m).IsStorable where
  st q d c := match q with
    | 0 => (inferInstance : BI.Storable (upEmb : UEmb _ 𝕄) (bigSep Finset.univ fun s : Fin 16 => tileGo m d (Fin.cast nCore_zero c) s))
  dn q d c := match q with
    | 0 => (inferInstance : BI.Storable (upEmb : UEmb _ 𝕄) (bigSep Finset.univ fun s : Fin 16 => tileTd m d (Fin.cast nCore_zero c) s))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody (F := F) m) : (K (F := F)).TileObl (D (F := F)) 𝒱 (P m) v₀ 0 := by
  intro d c i O W hO _ _

  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := hb d (coordsV ⟨_, hc.1⟩ ⟨_, hc.2⟩) O W hO
  rw [show cL (coordsV ⟨((K (F := F)).core 0 c).val, hc.1⟩ ⟨((K (F := F)).sub 0 i).val, hc.2⟩) = Fin.cast nCore_zero c from Fin.ext rfl,
    show sL (coordsV ⟨((K (F := F)).core 0 c).val, hc.1⟩ ⟨((K (F := F)).sub 0 i).val, hc.2⟩) = Fin.cast nSub_zero i from Fin.ext rfl] at h
  simp only [P_x, P_go, P_td]
  exact h.trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun s => tileGo m d (Fin.cast nCore_zero c) s), bigSep_tasks (F := F) (fun s => tileTd m d (Fin.cast nCore_zero c) s)]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem pts_cover {ℓ : Loc nD τ sig} {J : Type} [Fintype J] (Ks : J → Finset (Idx ℓ))
    (hd : ∀ t t', t ≠ t' → Disjoint (Ks t) (Ks t'))
    (hc : (Finset.univ : Finset J).biUnion Ks = Finset.univ) (q : PosShare TreeShare) (f : Buf (Elt F) ℓ) :
    (ℓ ↦{q} f : sProp 𝕄) = bigSep Finset.univ fun t => ℓ ↦[Ks t]{q} f := by
  rw [← pointsTo_biUnion Finset.univ Ks (fun t _ t' _ => hd t t'), hc]

def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := Fin.ext (by show 2 * (w.val / 2) + w.val % 2 = w.val; omega)

theorem regroup (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

theorem rows_eq {ℓ : Loc nD τ sig} (Ks : Fin 32 → Finset (Idx ℓ))
    (hd : ∀ t t', t ≠ t' → Disjoint (Ks t) (Ks t'))
    (hc : (Finset.univ : Finset (Fin 32)).biUnion Ks = Finset.univ) (f : Buf (Elt F) ℓ) :
    (ℓ ↦{fullShare} f : sProp 𝕄) = bigSep Finset.univ fun c : Fin 2 => bigSep Finset.univ fun s : Fin 16 => ℓ ↦[Ks (wid c s)]{fullShare} f :=
  (pts_cover Ks hd hc fullShare f).trans (regroup fun w => ℓ ↦[Ks w]{fullShare} f)

theorem reads_eq {ℓ : Loc nD τ sig} (Ks : Fin 16 → Finset (Idx ℓ))
    (hd : ∀ t t', t ≠ t' → Disjoint (Ks t) (Ks t'))
    (hc : (Finset.univ : Finset (Fin 16)).biUnion Ks = Finset.univ) (f : Buf (Elt F) ℓ) :
    (ℓ ↦{fullShare} f : sProp 𝕄)
      = iprop((ℓ ↦{Transfers.shareDrop fullShare 2} f)
          ∗ bigSep Finset.univ fun c : Fin 2 => bigSep Finset.univ fun s : Fin 16 => ℓ ↦[Ks s]{coreShare c} f) := by
  have e : (bigSep Finset.univ fun c : Fin 2 => (ℓ ↦{coreShare c} f : sProp 𝕄))
      = bigSep Finset.univ fun c : Fin 2 => bigSep Finset.univ fun s : Fin 16 => ℓ ↦[Ks s]{coreShare c} f :=
    bigSep_congr fun c _ => pts_cover Ks hd hc (coreShare c) f
  rw [← e]
  have h := Transfers.pointsTo_toks (Ix := HIx 1) (Name := ℕ) (U := UU) (Lvl := ℕ) (ℓ := ℓ) (S := Finset.univ) (f := f) fullShare 2
  exact BI.equiv_iff.mp ⟨h.1, h.2⟩

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = bigSep Finset.univ fun c : Fin 2 => bigSep Finset.univ fun s : Fin 16 => tileGo m d c s := by
  simp only [P_st]
  exact bigSep_cores (F := F) fun c => bigSep Finset.univ fun s : Fin 16 => tileGo m d c s
theorem dn0_eq (d : Dev nD) :
    (bigSep Finset.univ fun c : Fin ((K (F := F)).nCore 0) => (P m).dn 0 d c)
      = bigSep Finset.univ fun c : Fin 2 => bigSep Finset.univ fun s : Fin 16 => tileTd m d c s := by
  simp only [P_dn]
  exact bigSep_cores (F := F) fun c => bigSep Finset.univ fun s : Fin 16 => tileTd m d c s

theorem whole_eq (d : Dev nD) (fr : Buf (Elt F) (rLoc d)) (fc : Buf (Elt F) (cLoc d)) :
    (iprop((gLoc d ↦{fullShare} G0 m d) ∗ (pLoc d ↦{fullShare} P0 m d) ∗ (rLoc d ↦{fullShare} fr) ∗ (cLoc d ↦{fullShare} fc)) : sProp 𝕄)
      ⊣⊢ iprop((bigSep Finset.univ fun c : Fin 2 => bigSep Finset.univ fun s : Fin 16 =>
            iprop((gLoc d ↦[gSet s]{coreShare c} G0 m d) ∗ (pLoc d ↦[gSet s]{coreShare c} P0 m d)
              ∗ (rLoc d ↦[rSet (wid c s)]{fullShare} fr) ∗ (cLoc d ↦[cSet (wid c s)]{fullShare} fc)))
          ∗ (gLoc d ↦{Transfers.shareDrop fullShare 2} G0 m d) ∗ (pLoc d ↦{Transfers.shareDrop fullShare 2} P0 m d)) := by
  rw [reads_eq (ℓ := gLoc d) gSet (fun _ _ => Rect.part_disjoint hdivG) (Rect.biUnion_part hdivG),
    reads_eq (ℓ := pLoc d) gSet (fun _ _ => Rect.part_disjoint hdivG) (Rect.biUnion_part hdivG),
    rows_eq (ℓ := rLoc d) rSet (fun _ _ => Rect.part_disjoint hdivR) (Rect.biUnion_part hdivR),
    rows_eq (ℓ := cLoc d) cSet (fun _ _ => Rect.part_disjoint hdivC) (Rect.biUnion_part hdivC)]
  simp only [bigSep_sep']
  constructor
  · iintro ⟨⟨Hgd, Hg⟩, ⟨Hpd, Hp⟩, Hr, Hc⟩
    iframe
  · iintro ⟨⟨Hg, Hp, Hr, Hc⟩, Hgd, Hpd⟩
    iframe

theorem go_intro (d : Dev nD) (c : Fin 2) (s : Fin 16) :
    (iprop((gLoc d ↦[gSet s]{coreShare c} G0 m d) ∗ (pLoc d ↦[gSet s]{coreShare c} P0 m d)
        ∗ (rLoc d ↦[rSet (wid c s)]{fullShare} m (rLoc d)) ∗ (cLoc d ↦[cSet (wid c s)]{fullShare} m (cLoc d))) : sProp 𝕄)
      ⊢ tileGo m d c s := by
  unfold tileGo
  iintro ⟨Hg, Hp, Hr, Hc⟩
  isplitl [Hg]; · iexact Hg
  isplitl [Hp]; · iexact Hp
  isplitl [Hr]; · iexists _; iexact Hr
  iexists _; iexact Hc

theorem deal (d : Dev nD) :
    (iprop((gLoc d ↦{fullShare} G0 m d) ∗ (pLoc d ↦{fullShare} P0 m d) ∗ (rLoc d ↦{fullShare} m (rLoc d)) ∗ (cLoc d ↦{fullShare} m (cLoc d))) : sProp 𝕄)
      ⊢ iprop((bigSep Finset.univ fun c : Fin ((K (F := F)).nCore 0) => (P m).st 0 d c)
          ∗ (gLoc d ↦{Transfers.shareDrop fullShare 2} G0 m d) ∗ (pLoc d ↦{Transfers.shareDrop fullShare 2} P0 m d)) := by
  rw [st0_eq]
  exact (whole_eq m d _ _).1.trans (sep_mono_left (bigSep_mono fun c _ => bigSep_mono fun s _ => go_intro m d c s))

theorem gather (d : Dev nD) :
    iprop((bigSep Finset.univ fun c : Fin ((K (F := F)).nCore 0) => (P m).dn 0 d c)
          ∗ (gLoc d ↦{Transfers.shareDrop fullShare 2} G0 m d) ∗ (pLoc d ↦{Transfers.shareDrop fullShare 2} P0 m d))
      ⊢ (iprop((gLoc d ↦{fullShare} G0 m d) ∗ (pLoc d ↦{fullShare} P0 m d) ∗ (rLoc d ↦{fullShare} R1 m d) ∗ (cLoc d ↦{fullShare} C1 m d)) : sProp 𝕄) := by
  rw [dn0_eq]
  simp only [tileTd]
  exact (whole_eq m d (R1 m d) (C1 m d)).2

abbrev rA0 : DevRef τ sig := Proc.devRef .tc (main_arg0 : Ref sig .tc)
abbrev rA1 : DevRef τ sig := Proc.devRef .tc (main_arg1 : Ref sig .tc)
abbrev rG : DevRef τ sig := Proc.devRef .tc (main_v0 : Ref sig .tc)
abbrev rP : DevRef τ sig := Proc.devRef .tc (main_v1 : Ref sig .tc)
abbrev rR : DevRef τ sig := Proc.devRef .tc (main_v2_0 : Ref sig .tc)
abbrev rC : DevRef τ sig := Proc.devRef .tc (main_v2_1 : Ref sig .tc)
abbrev rO : DevRef τ sig := Proc.devRef .tc (main_v10 : Ref sig .tc)

def hostRefs : Finset (DevRef τ sig) := (StableHlo.tcRefs τ sig).filter fun b => ¬ b.isScoped

omit [FloatOps F] in

theorem unscoped_held (d : Dev nD) (W : Valuation τ sig (Elt F)) :
    (unscopedBufs d (fun b => W (Proc.devRef .tc b)) : sProp 𝕄) = held (T d) hostRefs W := by
  unfold unscopedBufs held hostRefs StableHlo.tcRefs
  rw [Finset.filter_map, bigSep_map]
  rfl

theorem mem_host (b : Ref sig .tc) (h : (Proc.devRef .tc b : DevRef τ sig).isScoped = false) : Proc.devRef .tc b ∈ hostRefs :=
  Finset.mem_filter.mpr ⟨StableHlo.devRef_mem_tcRefs b, fun h' => Bool.false_ne_true (h.symm.trans h')⟩

omit [FloatOps F] in

theorem sub_host (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

abbrev callRefs : Finset (DevRef τ sig) := {rG, rP, rR, rC}
abbrev finRefs : Finset (DevRef τ sig) := {rO, rA0, rA1}

theorem callRefs_sub : callRefs ⊆ hostRefs := by
  intro b hb
  simp only [Finset.mem_insert, Finset.mem_singleton] at hb
  rcases hb with rfl | rfl | rfl | rfl <;> exact mem_host _ rfl
theorem finRefs_sub : finRefs ⊆ hostRefs := by
  intro b hb
  simp only [Finset.mem_insert, Finset.mem_singleton] at hb
  rcases hb with rfl | rfl | rfl <;> exact mem_host _ rfl

omit [FloatOps F] in
theorem held_callRefs (d : Dev nD) (W : Valuation τ sig (Elt F)) :
    (held (T d) callRefs W : sProp 𝕄)
      = iprop((gLoc d ↦{fullShare} W rG) ∗ (pLoc d ↦{fullShare} W rP) ∗ (rLoc d ↦{fullShare} W rR) ∗ (cLoc d ↦{fullShare} W rC)) := by
  unfold held callRefs
  rw [SparseCore.bigSep_insert' (by decide), SparseCore.bigSep_insert' (by decide), SparseCore.bigSep_insert' (by decide), bigSep_singleton]
omit [FloatOps F] in
theorem held_finRefs (d : Dev nD) (W : Valuation τ sig (Elt F)) :
    (held (T d) finRefs W : sProp 𝕄)
      = iprop(((SparseCore.T d).loc main_v10 ↦{fullShare} W rO) ∗ (a0Loc d ↦{fullShare} W rA0) ∗ (a1Loc d ↦{fullShare} W rA1)) := by
  unfold held finRefs
  rw [SparseCore.bigSep_insert' (by decide), SparseCore.bigSep_insert' (by decide), bigSep_singleton]

abbrev opsA : List (HloOp τ sig (Elt F)) :=
  [ StableHlo.unary main_arg0 main_v0 ((transpose S16x3x2048 [0, 2, 1] · transposes_S16x2048x3_S16x3x2048_0_2_1) : (⟨S16x2048x3, .f32⟩ : BufTy).Contents (Elt F) → (⟨S16x3x2048, .f32⟩ : BufTy).Contents (Elt F)),
    StableHlo.unary main_arg1 main_v1 ((transpose S16x3x2048 [0, 2, 1] · transposes_S16x2048x3_S16x3x2048_0_2_1) : (⟨S16x2048x3, .f32⟩ : BufTy).Contents (Elt F) → (⟨S16x3x2048, .f32⟩ : BufTy).Contents (Elt F)) ]

abbrev opsB : List (HloOp τ sig (Elt F)) :=
  [ StableHlo.reshape main_v2_0 main_v3 rfl shapeCasts_S32x1024_S16x2048,
    StableHlo.reshape main_v2_1 main_v4 rfl shapeCasts_S32x2048_S16x2x2048,
    StableHlo.nullary main_cst (constant S_ .f32 0x7F800000#32),
    StableHlo.binary main_v4 main_cst main_v5 ((fun x v => Host.reduce FloatOps.minimumf x v reducesTo_S16x2x2048_S16x2048_d1 h_S_) : (⟨S16x2x2048, .f32⟩ : BufTy).Contents (Elt F) → (⟨S_, .f32⟩ : BufTy).Contents (Elt F) → (⟨S16x2048, .f32⟩ : BufTy).Contents (Elt F)),
    StableHlo.nullary main_cst_0 (constant S_ .f32 0x00000000#32),
    StableHlo.binary main_v3 main_cst_0 main_v6 ((fun x v => Host.reduceAdd x v reducesTo_S16x2048_S_d0_1 h_S_) : (⟨S16x2048, .f32⟩ : BufTy).Contents (Elt F) → (⟨S_, .f32⟩ : BufTy).Contents (Elt F) → (⟨S_, .f32⟩ : BufTy).Contents (Elt F)),
    StableHlo.nullary main_cst_1 (constant S_ .f32 0x47000000#32),
    StableHlo.binary main_v6 main_cst_1 main_v7 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v5 main_cst_2 main_v8 ((fun x v => Host.reduceAdd x v reducesTo_S16x2048_S_d0_1 h_S_) : (⟨S16x2048, .f32⟩ : BufTy).Contents (Elt F) → (⟨S_, .f32⟩ : BufTy).Contents (Elt F) → (⟨S_, .f32⟩ : BufTy).Contents (Elt F)),
    StableHlo.nullary main_cst_3 (constant S_ .f32 0x47000000#32),
    StableHlo.binary main_v8 main_cst_3 main_v9 (Host.divf : (⟨S_, .f32⟩ : BufTy).Contents (Elt F) → (⟨S_, .f32⟩ : BufTy).Contents (Elt F) → (⟨S_, .f32⟩ : BufTy).Contents (Elt F)),
    StableHlo.binary main_v7 main_v9 main_v10 (addf : (⟨S_, .f32⟩ : BufTy).Contents (Elt F) → (⟨S_, .f32⟩ : BufTy).Contents (Elt F) → (⟨S_, .f32⟩ : BufTy).Contents (Elt F)) ]

theorem main_eq (d : Dev nD) :
    main (F := F) d = (StableHlo.seq opsA >>= fun _ => (K (F := F)).run d 0 >>= fun _ => StableHlo.seq opsB >>= fun u => pure u) := by
  simp only [main, StableHlo.seq, bind_assoc, pure_bind]

theorem opsA_tc : (opsA : List (HloOp τ sig (Elt F))).Forall fun op => op.bufs ⊆ StableHlo.tcRefs τ sig :=
  ⟨StableHlo.unary_bufs_sub .., StableHlo.unary_bufs_sub ..⟩
theorem opsB_tc : (opsB : List (HloOp τ sig (Elt F))).Forall fun op => op.bufs ⊆ StableHlo.tcRefs τ sig :=
  ⟨StableHlo.reshape_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem opsA_sub : ∀ op ∈ (opsA : List (HloOp τ sig (Elt F))), op.bufs ⊆ hostRefs :=
  fun op hop => sub_host op (List.forall_iff_forall_mem.1 opsA_tc op hop)
theorem opsB_sub : ∀ op ∈ (opsB : List (HloOp τ sig (Elt F))), op.bufs ⊆ hostRefs :=
  fun op hop => sub_host op (List.forall_iff_forall_mem.1 opsB_tc op hop)
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h

def VA (d : Dev nD) : Valuation τ sig (Elt F) := StableHlo.after opsA (StableHlo.launchContents m d)
def VB (d : Dev nD) : Valuation τ sig (Elt F) := Function.update (Function.update (VA m d) rR (R1 m d)) rC (C1 m d)

theorem VA_g (d : Dev nD) : VA m d rG = G0 m d := by
  unfold VA; after_results; try rfl
theorem VA_p (d : Dev nD) : VA m d rP = P0 m d := by
  unfold VA; after_results; try rfl
theorem VA_r (d : Dev nD) : VA m d rR = m (rLoc d) := by
  unfold VA; after_results; try rfl
theorem VA_c (d : Dev nD) : VA m d rC = m (cLoc d) := by
  unfold VA; after_results; try rfl
theorem VA_a0 (d : Dev nD) : VA m d rA0 = m (a0Loc d) := by
  unfold VA; after_results; try rfl
theorem VA_a1 (d : Dev nD) : VA m d rA1 = m (a1Loc d) := by
  unfold VA; after_results; try rfl

theorem VB_other (d : Dev nD) {b : DevRef τ sig} (hr : b ≠ rR) (hc : b ≠ rC) : VB m d b = VA m d b := by
  unfold VB; rw [Function.update_of_ne hc, Function.update_of_ne hr]
theorem VB_r (d : Dev nD) : VB m d rR = R1 m d := by
  unfold VB; rw [Function.update_of_ne (show rR ≠ rC by decide), Function.update_self]
theorem VB_c (d : Dev nD) : VB m d rC = C1 m d := by
  unfold VB; rw [Function.update_self]

theorem afterB_o (W : Valuation τ sig (Elt F)) : StableHlo.after opsB W rO = hostTail (W rR) (W rC) := by
  after_results; try rfl
theorem afterB_a0 (W : Valuation τ sig (Elt F)) : StableHlo.after opsB W rA0 = W rA0 := by
  after_results; try rfl
theorem afterB_a1 (W : Valuation τ sig (Elt F)) : StableHlo.after opsB W rA1 = W rA1 := by
  after_results; try rfl

theorem notMem_ne {b : DevRef τ sig} (hb : b ∈ hostRefs \ callRefs) : b ≠ rR ∧ b ≠ rC :=
  ⟨fun e => (Finset.mem_sdiff.mp hb).2 (e ▸ (by decide : rR ∈ callRefs)), fun e => (Finset.mem_sdiff.mp hb).2 (e ▸ (by decide : rC ∈ callRefs))⟩

theorem held_call (d : Dev nD) :
    (held (T d) hostRefs (VA m d) : sProp 𝕄)
      = iprop(((gLoc d ↦{fullShare} G0 m d) ∗ (pLoc d ↦{fullShare} P0 m d) ∗ (rLoc d ↦{fullShare} m (rLoc d)) ∗ (cLoc d ↦{fullShare} m (cLoc d)))
          ∗ held (T d) (hostRefs \ callRefs) (VA m d)) := by
  rw [StableHlo.held_sub_split (T d) callRefs_sub (VA m d), held_callRefs, VA_g, VA_p, VA_r, VA_c]

theorem held_back (d : Dev nD) :
    (iprop(((gLoc d ↦{fullShare} G0 m d) ∗ (pLoc d ↦{fullShare} P0 m d) ∗ (rLoc d ↦{fullShare} R1 m d) ∗ (cLoc d ↦{fullShare} C1 m d))
          ∗ held (T d) (hostRefs \ callRefs) (VA m d)) : sProp 𝕄)
      = held (T d) hostRefs (VB m d) := by
  rw [StableHlo.held_sub_split (T d) callRefs_sub (VB m d), held_callRefs, VB_r, VB_c,
    VB_other m d (show rG ≠ rR by decide) (show rG ≠ rC by decide), VB_other m d (show rP ≠ rR by decide) (show rP ≠ rC by decide), VA_g, VA_p,
    StableHlo.held_congr (T d) (V := VB m d) (V' := VA m d) fun b hb => VB_other m d (notMem_ne hb).1 (notMem_ne hb).2]

abbrev FIN (d : Dev nD) : sProp 𝕄 :=
  iprop(((SparseCore.T d).loc main_v10 ↦{fullShare} (hostTail (rowsOut (G0 m d) (P0 m d)) (colsOut (G0 m d) (P0 m d)) : (⟨S_, .f32⟩ : BufTy).Contents (Elt F)))
    ∗ (a0Loc d ↦{fullShare} m (a0Loc d)) ∗ (a1Loc d ↦{fullShare} m (a1Loc d)))

theorem held_fin (d : Dev nD) : (held (T d) hostRefs (StableHlo.after opsB (VB m d)) : sProp 𝕄) ⊢ FIN m d := by
  rw [StableHlo.held_sub_split (T d) finRefs_sub, held_finRefs, afterB_o, afterB_a0, afterB_a1, VB_r, VB_c,
    VB_other m d (show rA0 ≠ rR by decide) (show rA0 ≠ rC by decide), VB_other m d (show rA1 ≠ rR by decide) (show rA1 ≠ rC by decide), VA_a0, VA_a1]
  iintro ⟨H, -⟩
  iexact H

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄) = held (T d) hostRefs (StableHlo.launchContents m d) from
    unscoped_held d (StableHlo.launchContents m d)]
  iintro ⟨#Hctx, Hst, ⟨Hb, Hheld, -, -⟩, -⟩

  iapply (StableHlo.wp_seq 𝒱 none Set.univ d hostRefs _ opsA opsA_sub opsA_fresh (StableHlo.launchContents m d)) $$ [Hb Hheld]
  · iframe
  iintro ⟨Hb, Hheld⟩
  rw [wp_bind]

  have hcall : (held (d.tc : Thread nD τ) hostRefs (StableHlo.after opsA (StableHlo.launchContents m d)) : sProp 𝕄)
      ⊢ iprop(((gLoc d ↦{fullShare} G0 m d) ∗ (pLoc d ↦{fullShare} P0 m d) ∗ (rLoc d ↦{fullShare} m (rLoc d)) ∗ (cLoc d ↦{fullShare} m (cLoc d)))
          ∗ held (T d) (hostRefs \ callRefs) (VA m d)) := Entails.of_eq (held_call m d)
  ihave Hh := hcall $$ Hheld
  icases Hh with ⟨⟨Hg, Hp, Hr, Hc⟩, Hrest⟩
  ihave Hd := (deal m d) $$ [Hg Hp Hr Hc]
  · iframe
  icases Hd with ⟨Hst0, Hgd, Hpd⟩
  iapply ((K (F := F)).wp_run (D (F := F)) 𝒱 (EH := EH) (P := P m) κ d 0) $$ [Hst Hst0 Hb Hrest Hgd Hpd]
  isplitr; · iexact Hctx
  isplitl [Hst]; · iexact Hst
  isplitl [Hst0]; · iexact Hst0
  iintro ⟨Hst, Hdn⟩

  ihave Hw := (gather m d) $$ [Hdn Hgd Hpd]
  · iframe
  ihave Hheld := (Entails.of_eq (held_back m d)) $$ [Hw Hrest]
  · iframe

  iapply (StableHlo.wp_seq 𝒱 none Set.univ d hostRefs _ opsB opsB_sub opsB_fresh (VB m d)) $$ [Hb Hheld]
  · iframe
  iintro ⟨Hb, Hheld⟩
  rw [wp_pure]; imodintro
  isplitl [Hst]; · iexact Hst
  iapply (held_fin m d); iexact Hheld

def fq (d : Dev nD) (s' : Phys nD τ sig (Elt F)) : Prop :=
  s'.mem.mem ((SparseCore.T d).loc main_v10)
      = (hostTail (rowsOut (G0 m d) (P0 m d)) (colsOut (G0 m d) (P0 m d)) : (⟨S_, .f32⟩ : BufTy).Contents (Elt F))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ho, Ha, Hb⟩, HSI⟩
  ihave H := (persistent_entails_right (SI_pointsTo_agree (st := s') (ℓ := (SparseCore.T d).loc main_v10) (I := Finset.univ) (q := fullShare)
      (f := (hostTail (rowsOut (G0 m d) (P0 m d)) (colsOut (G0 m d) (P0 m d)) : (⟨S_, .f32⟩ : BufTy).Contents (Elt F))))) $$ [HSI Ho]
  · isplitl [HSI] <;> iassumption
  icases H with ⟨%h0, HSI, -⟩
  ihave H := (persistent_entails_right (SI_pointsTo_agree (st := s') (ℓ := a0Loc d) (I := Finset.univ) (q := fullShare) (f := m (a0Loc d)))) $$ [HSI Ha]
  · isplitl [HSI] <;> iassumption
  icases H with ⟨%h1, HSI, -⟩
  ihave H := (SI_pointsTo_agree (st := s') (ℓ := a1Loc d) (I := Finset.univ) (q := fullShare) (f := m (a1Loc d))) $$ [HSI Hb]
  · isplitl [HSI] <;> iassumption
  icases H with %h2
  ipureintro
  exact ⟨funext fun i => h0 i (Finset.mem_univ i), funext fun i => h1 i (Finset.mem_univ i), funext fun i => h2 i (Finset.mem_univ i)⟩

/-- The launch: the tasks' correctness gives the run of the program and its result. -/
theorem run_main [∀ e, Nonempty (Elt F e)] (hb : TileBody (F := F) m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.ChamferIdeal

end
-- ==== Proof.Bits.HostTail.lean ====
import proofs.«204275_g83442624626996_cont_9to1c4b_244_10_alg».proof.Kernel
import proofs.«204275_g83442624626996_cont_9to1c4b_244_10_alg».proof.Proof.Gen.Kernel

noncomputable section

namespace Cert.Proof.ChamferBits

open Idealize.ShloMosaic Cert.Kernel Cert.Kernel.Gen

variable {F : FTy → Type} [FloatOps F]

def hostTail (rm : FVec F S32x1024 .f32) (cm : FVec F S32x2048 .f32) : FVec F S_ .f32 :=
  addf
    (Host.divf
      (Host.reduceAdd (shapeCast S16x2048 rm shapeCasts_S32x1024_S16x2048) (constant S_ .f32 0x00000000#32)
        reducesTo_S16x2048_S_d0_1 h_S_)
      (constant S_ .f32 0x47000000#32))
    (Host.divf
      (Host.reduceAdd
        (Host.reduce FloatOps.minimumf (shapeCast S16x2x2048 cm shapeCasts_S32x2048_S16x2x2048)
          (constant S_ .f32 0x7F800000#32) reducesTo_S16x2x2048_S16x2048_d1 h_S_)
        (constant S_ .f32 0x00000000#32) reducesTo_S16x2048_S_d0_1 h_S_)
      (constant S_ .f32 0x47000000#32))

end Cert.Proof.ChamferBits

end
-- ==== Proof.Bits.Setup.lean ====
import proofs.«204275_g83442624626996_cont_9to1c4b_244_10_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204275_g83442624626996_cont_9to1c4b_244_10_alg».proof.Proof.Gen.Kernel
import proofs.«204275_g83442624626996_cont_9to1c4b_244_10_alg».proof.Proof.Gen.Kernel.Skeleton
import proofs.«204275_g83442624626996_cont_9to1c4b_244_10_alg».proof.Proof.TileSpec
import proofs.«204275_g83442624626996_cont_9to1c4b_244_10_alg».proof.Proof.Bits.HostTail

noncomputable section

namespace Cert.Proof.ChamferBits

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Chamfer

variable {F : FTy → Type}

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev MM (F : FTy → Type) : Type := MT nD τ sig (HIx 1) (Elt F) ℕ UU ℕ

local notation "𝕄" => MM F

abbrev EH : Emb UH (MM F) := embL

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev gLoc (d : Dev nD) : Loc nD τ sig := (SparseCore.T d).loc main_v0
abbrev pLoc (d : Dev nD) : Loc nD τ sig := (SparseCore.T d).loc main_v1
abbrev rLoc (d : Dev nD) : Loc nD τ sig := (SparseCore.T d).loc main_v2_0
abbrev cLoc (d : Dev nD) : Loc nD τ sig := (SparseCore.T d).loc main_v2_1

theorem hdivG : 16 ∣ S16x3x2048.size 0 := ⟨1, rfl⟩
theorem hdivR : 32 ∣ S32x1024.size 0 := ⟨1, rfl⟩
theorem hdivC : 32 ∣ S32x2048.size 0 := ⟨1, rfl⟩

abbrev gSet (s : Fin 16) : Finset S16x3x2048.Idx := (Rect.part (s := S16x3x2048) (a₀ := 0) hdivG s).set
abbrev rSet (w : Fin 32) : Finset S32x1024.Idx := (Rect.part (s := S32x1024) (a₀ := 0) hdivR w).set
abbrev cSet (w : Fin 32) : Finset S32x2048.Idx := (Rect.part (s := S32x2048) (a₀ := 0) hdivC w).set

def wid (c : Fin 2) (s : Fin 16) : Fin 32 := ⟨2 * s.val + c.val, by omega⟩

abbrev coreShare (c : Fin 2) : PosShare TreeShare := Transfers.shareTok fullShare 2 c

variable [FloatOps F]

def G0 (d : Dev nD) : Buf (Elt F) (gLoc d) :=
  (transpose S16x3x2048 [0, 2, 1] (m (a0Loc d)) transposes_S16x2048x3_S16x3x2048_0_2_1 : (⟨S16x3x2048, .f32⟩ : BufTy).Contents (Elt F))
def P0 (d : Dev nD) : Buf (Elt F) (pLoc d) :=
  (transpose S16x3x2048 [0, 2, 1] (m (a1Loc d)) transposes_S16x2048x3_S16x3x2048_0_2_1 : (⟨S16x3x2048, .f32⟩ : BufTy).Contents (Elt F))

def R1 (d : Dev nD) : Buf (Elt F) (rLoc d) := (rowsOut (G0 m d) (P0 m d) : (⟨S32x1024, .f32⟩ : BufTy).Contents (Elt F))
def C1 (d : Dev nD) : Buf (Elt F) (cLoc d) := (colsOut (G0 m d) (P0 m d) : (⟨S32x2048, .f32⟩ : BufTy).Contents (Elt F))

def tileGo (d : Dev nD) (c : Fin 2) (s : Fin 16) : sProp 𝕄 :=
  iprop((gLoc d ↦[gSet s]{coreShare c} G0 m d) ∗ (pLoc d ↦[gSet s]{coreShare c} P0 m d)
    ∗ (∃ f, rLoc d ↦[rSet (wid c s)]{fullShare} f) ∗ (∃ f, cLoc d ↦[cSet (wid c s)]{fullShare} f))

def tileTd (d : Dev nD) (c : Fin 2) (s : Fin 16) : sProp 𝕄 :=
  iprop((gLoc d ↦[gSet s]{coreShare c} G0 m d) ∗ (pLoc d ↦[gSet s]{coreShare c} P0 m d)
    ∗ (rLoc d ↦[rSet (wid c s)]{fullShare} R1 m d) ∗ (cLoc d ↦[cSet (wid c s)]{fullShare} C1 m d))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev tileProg (L : grid0.Coords) :=
  cc0__chamfer_body (F := F) L (Memref.whole main_v0_scv) (Memref.isWhole_whole _) (Memref.whole main_v1_scv) (Memref.isWhole_whole _)
    (Memref.whole main_v2_0_scv) (Memref.isWhole_whole _) (Memref.whole main_v2_1_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scoped0 cc0_scoped1 cc0_scoped2 cc0_scoped3

def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => (iprop(tileTd m d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄)

def QC : PUnit × MemSt nD τ sig (Elt F) → Prop := fun r => ∀ c : Dev nD,
  r.2.mem ((SparseCore.T c).loc main_v10)
      = (hostTail (rowsOut (G0 m c) (P0 m c)) (colsOut (G0 m c) (P0 m c)) : (⟨S_, .f32⟩ : BufTy).Contents (Elt F))
    ∧ r.2.mem (a0Loc c) = m (a0Loc c) ∧ r.2.mem (a1Loc c) = m (a1Loc c)

end Cert.Proof.ChamferBits

end
-- ==== Proof.Bits.TileRes.lean ====
import proofs.«204275_g83442624626996_cont_9to1c4b_244_10_alg».proof.Proof.Bits.Setup

noncomputable section

namespace Cert.Proof.ChamferBits

open Cert.Kernel Cert.Kernel.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Chamfer

variable {F : FTy → Type}

local notation "𝕄" => MM F

variable (m : (ℓ : Loc nD τ sig) → Buf (Elt F) ℓ)

section Tile

variable (d : Dev nD) (L : grid0.Coords)

abbrev thrV (d : Dev nD) (L : grid0.Coords) : Thread nD τ := V d (cV L) (jV L)

abbrev cell0 (d : Dev nD) (L : grid0.Coords) : GSem nD τ sig := (thrV d L, .dma cc0_scoped0.sem)
abbrev cell1 (d : Dev nD) (L : grid0.Coords) : GSem nD τ sig := (thrV d L, .dma cc0_scoped1.sem)
abbrev cell2 (d : Dev nD) (L : grid0.Coords) : GSem nD τ sig := (thrV d L, .dma cc0_scoped2.sem)
abbrev cell3 (d : Dev nD) (L : grid0.Coords) : GSem nD τ sig := (thrV d L, .dma cc0_scoped3.sem)

theorem ownSems0_V :
    (ownSems0 (thrV d L) : sProp 𝕄)
      = iprop(semVal (cell0 d L) 0 ∗ semVal (cell1 d L) 0 ∗ semVal (cell2 d L) 0 ∗ semVal (cell3 d L) 0
          ∗ bigSep (((((ownCells (thrV d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f) ∗ (∃ f, (thrV d L).loc cc0_scratch3 ↦{fullShare} f)
          ∗ (∃ f, (thrV d L).loc cc0_scratch4 ↦{fullShare} f)
          ∗ bigSep ((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  have hne : ∀ {a b : Ref sig .scVector}, a ≠ b → (Proc.scVector (cV L) (jV L)).devRef a ≠ (Proc.scVector (cV L) (jV L)).devRef b :=
    fun h e => h (Proc.devRef_injective _ e)
  have hmem0 : (Proc.scVector (cV L) (jV L)).devRef cc0_scratch0 ∈ ownRefs (τ := τ) (.scVector (cV L) (jV L)) :=
    SparseCore.Cfg.mem_ownRefs_of_owner (p := Proc.scVector (cV L) (jV L)) (b := (Proc.scVector (cV L) (jV L)).devRef cc0_scratch0) rfl
  have hmem1 : (Proc.scVector (cV L) (jV L)).devRef cc0_scratch1 ∈ ownRefs (τ := τ) (.scVector (cV L) (jV L)) :=
    SparseCore.Cfg.mem_ownRefs_of_owner (p := Proc.scVector (cV L) (jV L)) (b := (Proc.scVector (cV L) (jV L)).devRef cc0_scratch1) rfl
  have hmem2 : (Proc.scVector (cV L) (jV L)).devRef cc0_scratch2 ∈ ownRefs (τ := τ) (.scVector (cV L) (jV L)) :=
    SparseCore.Cfg.mem_ownRefs_of_owner (p := Proc.scVector (cV L) (jV L)) (b := (Proc.scVector (cV L) (jV L)).devRef cc0_scratch2) rfl
  have hmem3 : (Proc.scVector (cV L) (jV L)).devRef cc0_scratch3 ∈ ownRefs (τ := τ) (.scVector (cV L) (jV L)) :=
    SparseCore.Cfg.mem_ownRefs_of_owner (p := Proc.scVector (cV L) (jV L)) (b := (Proc.scVector (cV L) (jV L)).devRef cc0_scratch3) rfl
  have hmem4 : (Proc.scVector (cV L) (jV L)).devRef cc0_scratch4 ∈ ownRefs (τ := τ) (.scVector (cV L) (jV L)) :=
    SparseCore.Cfg.mem_ownRefs_of_owner (p := Proc.scVector (cV L) (jV L)) (b := (Proc.scVector (cV L) (jV L)).devRef cc0_scratch4) rfl
  refine (SparseCore.bigSep_erase' hmem0).trans ?_
  rw [SparseCore.bigSep_erase' (Finset.mem_erase.mpr ⟨hne (show (cc0_scratch1 : Ref sig .scVector) ≠ cc0_scratch0 by decide), hmem1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hmem2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), hmem3⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide), hmem4⟩⟩⟩⟩)]

abbrev gSl (L : grid0.Coords) : Memref sig .scVector .hbm S3x2048 .f32 :=
  ((Memref.whole main_v0_scv : Memref sig .scVector .hbm S16x3x2048 .f32).slice (Rect.unit (s := S16x3x2048) (k0_off1 L) S1x3x2048.size (k0_off1_inb L)) (fun _ => rfl)).squeeze S3x2048 squeezes_S1x3x2048_S3x2048
abbrev pSl (L : grid0.Coords) : Memref sig .scVector .hbm S3x2048 .f32 :=
  ((Memref.whole main_v1_scv : Memref sig .scVector .hbm S16x3x2048 .f32).slice (Rect.unit (s := S16x3x2048) (k0_off1 L) S1x3x2048.size (k0_off1_inb L)) (fun _ => rfl)).squeeze S3x2048 squeezes_S1x3x2048_S3x2048
abbrev rSl (L : grid0.Coords) : Memref sig .scVector .hbm S1024 .f32 :=
  ((Memref.whole main_v2_0_scv : Memref sig .scVector .hbm S32x1024 .f32).slice (Rect.unit (s := S32x1024) (k0_off15 L) S1x1024.size (k0_off15_inb L)) (fun _ => rfl)).squeeze S1024 squeezes_S1x1024_S1024
abbrev cSl (L : grid0.Coords) : Memref sig .scVector .hbm S2048 .f32 :=
  ((Memref.whole main_v2_1_scv : Memref sig .scVector .hbm S32x2048 .f32).slice (Rect.unit (s := S32x2048) (k0_off16 L) S1x2048.size (k0_off16_inb L)) (fun _ => rfl)).squeeze S2048 squeezes_S1x2048_S2048

abbrev gScr : Memref sig .scVector .vmem S3x2048 .f32 := Memref.whole cc0_scratch0
abbrev pScr : Memref sig .scVector .vmem S3x2048 .f32 := Memref.whole cc0_scratch1
abbrev cScr : Memref sig .scVector .vmem S2048 .f32 := Memref.whole cc0_scratch2
abbrev rScr : Memref sig .scVector .vmem S1024 .f32 := Memref.whole cc0_scratch3
abbrev aScr : Memref sig .scVector .vmem S16x16 .f32 := Memref.whole cc0_scratch4

end Tile

end Cert.Proof.ChamferBits

end
-- ==== Proof.Bits.TileInv.lean ====
import proofs.«204275_g83442624626996_cont_9to1c4b_244_10_alg».proof.Proof.Bits.TileRes

noncomputable section

namespace Cert.Proof.ChamferBits

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

def foldFrom (c0 : F .f32) (f : Nat → F .f32) : Nat → F .f32
  | 0 => c0
  | n + 1 => FloatOps.minimumf (foldFrom c0 f n) (f n)

def scrAt (X : S3x2048.Idx → F .f32) (k j : Nat) : F .f32 :=
  X (ValueIdx.ix2 (⟨k % 3, Nat.mod_lt _ (by decide)⟩ : Fin 3) (⟨j % 2048, Nat.mod_lt _ (by decide)⟩ : Fin 2048))

def dRow (Pv : S3x2048.Idx → F .f32) (gx gy gz : Nat → F .f32) (r j : Nat) : F .f32 :=
  sqK (gx r) (gy r) (gz r) (scrAt Pv 0 j) (scrAt Pv 1 j) (scrAt Pv 2 j)

section Inner

variable (d : Dev nD) (L : grid0.Coords)

abbrev Acc8 (F : FTy → Type) : Type :=
  FVec F S16 .f32 × FVec F S16 .f32 × FVec F S16 .f32 × FVec F S16 .f32 × FVec F S16 .f32 × FVec F S16 .f32 × FVec F S16 .f32 × FVec F S16 .f32

def Acc8.get (a : Acc8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

def invInner (Pv : Buf (Elt F) ((thrV d L).loc cc0_scratch1)) (col0 : Buf (Elt F) ((thrV d L).loc cc0_scratch2))
    (gx gy gz : Nat → F .f32) (r0 : Nat) (k : Nat) (acc : Acc8 F) : sProp 𝕄 :=
  iprop(((pScr).view.loc (thrV d L) ↦{fullShare} Pv)
    ∗ (∃ f, ((cScr).view.loc (thrV d L) ↦{fullShare} f)
        ∗ ⌜∀ j : Fin 2048, f (ValueIdx.ix1 j)
            = if j.val < 16 * k then foldFrom (col0 (ValueIdx.ix1 j)) (fun r => dRow Pv gx gy gz (r0 + r) j.val) 8 else col0 (ValueIdx.ix1 j)⌝)
    ∗ ⌜∀ (r : Fin 8) (l : Fin 16), acc.get r (ValueIdx.ix1 l) = minUpTo (fun c => dRow Pv gx gy gz (r0 + r.val) (16 * c + l.val)) k⌝)

end Inner

section Outer

variable (d : Dev nD) (L : grid0.Coords)
variable (Gv : Buf (Elt F) ((thrV d L).loc cc0_scratch0)) (Pv : Buf (Elt F) ((thrV d L).loc cc0_scratch1))

def gxG (r : Nat) : F .f32 := scrAt Gv 0 (1024 * (L 0).val + r)
def gyG (r : Nat) : F .f32 := scrAt Gv 1 (1024 * (L 0).val + r)
def gzG (r : Nat) : F .f32 := scrAt Gv 2 (1024 * (L 0).val + r)

def rowVal (i : Nat) : F .f32 :=
  tree16 fun c => minUpTo (fun cc => dRow Pv (gxG d L Gv) (gyG d L Gv) (gzG d L Gv) i (16 * cc + c)) 128

def colVal (n j : Nat) : F .f32 :=
  minUpTo (fun r => dRow Pv (gxG d L Gv) (gyG d L Gv) (gzG d L Gv) r j) n

def inv2 (k : Nat) (_ : BitVec 32) : sProp 𝕄 :=
  iprop(((gScr).view.loc (thrV d L) ↦{fullShare} Gv) ∗ ((pScr).view.loc (thrV d L) ↦{fullShare} Pv)
    ∗ (∃ fc, ((cScr).view.loc (thrV d L) ↦{fullShare} fc) ∗ ⌜∀ j : Fin 2048, fc (ValueIdx.ix1 j) = colVal d L Gv Pv (16 * k) j.val⌝)
    ∗ (∃ fr, ((rScr).view.loc (thrV d L) ↦{fullShare} fr) ∗ ⌜∀ i : Fin 1024, i.val < 16 * k → fr (ValueIdx.ix1 i) = rowVal d L Gv Pv i.val⌝)
    ∗ (∃ fa, (aScr).view.loc (thrV d L) ↦{fullShare} fa))

end Outer

end Cert.Proof.ChamferBits

end
-- ==== Proof.Bits.PayLane.lean ====
import proofs.«204275_g83442624626996_cont_9to1c4b_244_10_alg».proof.Proof.Gen.Kernel.Skeleton
import proofs.«204275_g83442624626996_cont_9to1c4b_244_10_alg».proof.Proof.TileSpec
import Idealize.ShloMosaic.Lib.ValueIdx
import Idealize.ShloMosaic.Lib.ValueLayout

noncomputable section

namespace Cert.Proof.ChamferBits

open Idealize.ShloMosaic Idealize.ShloMosaic.ValueIdx Cert.Kernel Cert.Kernel.Gen Cert.Chamfer

variable {F : FTy → Type} [FloatOps F]

/-- Extracting lane `n` commutes with reading: the one-element window starts at `n`. -/
theorem lane_extract {α : Type} (v : S16.Idx → α) (n : ℕ) (hs : S16.Slices ![n] S1) :
    extractAt ![0] (extractStridedSlice S1 ![n] v hs) inpos_S1_p0 = v (ix1 ⟨n, hs.2 0⟩) := by
  unfold extractAt extractStridedSlice
  exact congrArg v (funext fun a => match a with | ⟨0, _⟩ => rfl)

/-- Flattening a 1 × 16 array does not move its entries. -/
theorem row_lane (v : Vec F S1x16 .f32) (l : Fin 16) :
    shapeCast S16 v shapeCasts_S1x16_S16 (ix1 l) = v (ix2 (0 : Fin 1) l) :=
  shapeCast_1a_a_apply v shapeCasts_S1x16_S16 l

theorem subf_at (a b : FVec F S16 .f32) (i : S16.Idx) : subf a b i = FloatOps.subf (a i) (b i) := rfl
theorem mulf_at (a b : FVec F S16 .f32) (i : S16.Idx) : mulf a b i = FloatOps.mulf (a i) (b i) := rfl
theorem addf_at (a b : FVec F S16 .f32) (i : S16.Idx) : addf a b i = FloatOps.addf (a i) (b i) := rfl
theorem minimumf_at (a b : FVec F S16 .f32) (i : S16.Idx) : minimumf a b i = FloatOps.minimumf (a i) (b i) := rfl

end Cert.Proof.ChamferBits

end
-- ==== Proof.Bits.Offsets.lean ====
import proofs.«204275_g83442624626996_cont_9to1c4b_244_10_alg».proof.Proof.Gen.Kernel
import Idealize.ShloMosaic.Lib.Affine

set_option Elab.async false
set_option synthInstance.maxSize 4096

namespace Cert.Proof.ChamferBits

open Idealize.ShloMosaic Cert.Kernel Cert.Kernel.Gen

theorem k0_t1_trips : k0_t1_loop.trips = 128 := by decide
theorem k0_t2_trips : k0_t2_loop.trips = 64 := by decide
theorem k0_t3_trips : k0_t3_loop.trips = 128 := by decide
theorem k0_t4_trips : k0_t4_loop.trips = 128 := by decide

theorem k0_off1_eq : ∀ i : grid0.Coords, k0_off1 i = ![(i 1).val, 0, 0] := by decide +kernel

theorem k0_off3_eq : ∀ (i : grid0.Coords) (k : Fin k0_t2_loop.trips),
    k0_off3 i k = ![0, 1024 * (i 0).val + 16 * k.val] := by decide +kernel

theorem k0_off4_eq : ∀ (i : grid0.Coords) (k : Fin k0_t2_loop.trips),
    k0_off4 i k = ![1, 1024 * (i 0).val + 16 * k.val] := by decide +kernel

theorem k0_off5_eq : ∀ (i : grid0.Coords) (k : Fin k0_t2_loop.trips),
    k0_off5 i k = ![2, 1024 * (i 0).val + 16 * k.val] := by decide +kernel

end Cert.Proof.ChamferBits
-- ==== Proof.Bits.ScratchIdx.lean ====
import proofs.«204275_g83442624626996_cont_9to1c4b_244_10_alg».proof.Proof.Bits.TileRes
import proofs.«204275_g83442624626996_cont_9to1c4b_244_10_alg».proof.Proof.Bits.Offsets
import Idealize.ShloMosaic.Lib.Writes
import Idealize.ShloMosaic.Lib.WritesUnit
import Idealize.ShloMosaic.Lib.ValueIdx
import Idealize.ShloMosaic.Lib.ValueLayout

noncomputable section

namespace Cert.Proof.ChamferBits

open Cert.Kernel Cert.Kernel.Gen

open Idealize.ShloMosaic
open Idealize.SL.Sem
open Idealize.ShloMosaic.ValueIdx
open Cert.Chamfer

variable {F : FTy → Type}

theorem gRect_eq (L : grid0.Coords) :
    Rect.unit (s := S16x3x2048) (k0_off1 L) S1x3x2048.size (k0_off1_inb L)
      = Rect.part (s := S16x3x2048) (a₀ := 0) hdivG (sL L) := by
  unfold Rect.part Rect.block
  congr 1 <;> funext a
  · rw [k0_off1_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem rRect_eq (L : grid0.Coords) :
    Rect.unit (s := S32x1024) (k0_off15 L) S1x1024.size (k0_off15_inb L)
      = Rect.part (s := S32x1024) (a₀ := 0) hdivR (wid (cL L) (sL L)) := by
  unfold Rect.part Rect.block
  congr 1 <;> funext a
  · rw [k0_off15_eq]
    match a with
    | 0 => simp [Shape.partIx, Shape.partSize, wid]
    | 1 => simp [Shape.partIx, Shape.partSize]
  · match a with
    | 0 => simp [Shape.partSize]
    | 1 => simp [Shape.partSize]

theorem cRect_eq (L : grid0.Coords) :
    Rect.unit (s := S32x2048) (k0_off16 L) S1x2048.size (k0_off16_inb L)
      = Rect.part (s := S32x2048) (a₀ := 0) hdivC (wid (cL L) (sL L)) := by
  unfold Rect.part Rect.block
  congr 1 <;> funext a
  · rw [k0_off16_eq]
    match a with
    | 0 => simp [Shape.partIx, Shape.partSize, wid]
    | 1 => simp [Shape.partIx, Shape.partSize]
  · match a with
    | 0 => simp [Shape.partSize]
    | 1 => simp [Shape.partSize]

theorem set_gSl (L : grid0.Coords) : (gSl L).view.set = gSet (sL L) := by
  show (((Memref.whole main_v0_scv : Memref sig .scVector .hbm S16x3x2048 .f32).view.slice
      (Rect.unit (s := S16x3x2048) (k0_off1 L) S1x3x2048.size (k0_off1_inb L))).reshape S3x2048 squeezes_S1x3x2048_S3x2048.numel_eq).set = _
  rw [View.set_reshape, View.set_slice]
  exact Finset.map_refl.trans (congrArg (fun r : Rect S16x3x2048 => r.set) (gRect_eq L))

theorem set_pSl (L : grid0.Coords) : (pSl L).view.set = gSet (sL L) := by
  show (((Memref.whole main_v1_scv : Memref sig .scVector .hbm S16x3x2048 .f32).view.slice
      (Rect.unit (s := S16x3x2048) (k0_off1 L) S1x3x2048.size (k0_off1_inb L))).reshape S3x2048 squeezes_S1x3x2048_S3x2048.numel_eq).set = _
  rw [View.set_reshape, View.set_slice]
  exact Finset.map_refl.trans (congrArg (fun r : Rect S16x3x2048 => r.set) (gRect_eq L))

theorem set_rSl (L : grid0.Coords) : (rSl L).view.set = rSet (wid (cL L) (sL L)) := by
  show (((Memref.whole main_v2_0_scv : Memref sig .scVector .hbm S32x1024 .f32).view.slice
      (Rect.unit (s := S32x1024) (k0_off15 L) S1x1024.size (k0_off15_inb L))).reshape S1024 squeezes_S1x1024_S1024.numel_eq).set = _
  rw [View.set_reshape, View.set_slice]
  exact Finset.map_refl.trans (congrArg (fun r : Rect S32x1024 => r.set) (rRect_eq L))

theorem set_cSl (L : grid0.Coords) : (cSl L).view.set = cSet (wid (cL L) (sL L)) := by
  show (((Memref.whole main_v2_1_scv : Memref sig .scVector .hbm S32x2048 .f32).view.slice
      (Rect.unit (s := S32x2048) (k0_off16 L) S1x2048.size (k0_off16_inb L))).reshape S2048 squeezes_S1x2048_S2048.numel_eq).set = _
  rw [View.set_reshape, View.set_slice]
  exact Finset.map_refl.trans (congrArg (fun r : Rect S32x2048 => r.set) (cRect_eq L))

section Scratch

variable (d : Dev nD) (L : grid0.Coords)

theorem cScr_writes_at (f : Buf (Elt F) ((thrV d L).loc cc0_scratch2)) (o : Fin 1 → ℕ) (hin : ∀ a, o a + S16.size a ≤ S2048.size a)
    (off : ℕ) (ho : o = ![off]) (w : Vec F S16 .f32) (j : Fin 2048) :
    (cScr).view.writes (Elt F) f [⟨Rect.unit (s := S2048) o S16.size hin, w⟩] (ix1 j)
      = if h : off ≤ j.val ∧ j.val < off + 16 then w (ix1 (⟨j.val - off, by omega⟩ : Fin 16)) else f (ix1 j) := by
  subst ho
  by_cases hj : off ≤ j.val ∧ j.val < off + 16
  · rw [dif_pos hj]
    exact View.read_writes_cons_unit_of_mem (cScr).view f hin w [] (ix1 j) (ix1 (⟨j.val - off, by omega⟩ : Fin 16)) rfl
      (fun a => by
        match a with
        | ⟨0, _⟩ => show j.val = off + (j.val - off); omega)
  · rw [dif_neg hj]
    exact View.read_writes_cons_unit_of_not_mem (cScr).view f hin w [] (ix1 j) rfl (0 : Fin 1)
      (by show j.val < off ∨ off + 16 ≤ j.val; omega)

theorem rScr_writes_at (f : Buf (Elt F) ((thrV d L).loc cc0_scratch3)) (o : Fin 1 → ℕ) (hin : ∀ a, o a + S16.size a ≤ S1024.size a)
    (off : ℕ) (ho : o = ![off]) (w : Vec F S16 .f32) (j : Fin 1024) :
    (rScr).view.writes (Elt F) f [⟨Rect.unit (s := S1024) o S16.size hin, w⟩] (ix1 j)
      = if h : off ≤ j.val ∧ j.val < off + 16 then w (ix1 (⟨j.val - off, by omega⟩ : Fin 16)) else f (ix1 j) := by
  subst ho
  by_cases hj : off ≤ j.val ∧ j.val < off + 16
  · rw [dif_pos hj]
    exact View.read_writes_cons_unit_of_mem (rScr).view f hin w [] (ix1 j) (ix1 (⟨j.val - off, by omega⟩ : Fin 16)) rfl
      (fun a => by
        match a with
        | ⟨0, _⟩ => show j.val = off + (j.val - off); omega)
  · rw [dif_neg hj]
    exact View.read_writes_cons_unit_of_not_mem (rScr).view f hin w [] (ix1 j) rfl (0 : Fin 1)
      (by show j.val < off ∨ off + 16 ≤ j.val; omega)

theorem gScr_row_lane (Pv : Buf (Elt F) ((thrV d L).loc cc0_scratch0)) (o : Fin 2 → ℕ)
    (hin : ∀ a, o a + S1x16.size a ≤ S3x2048.size a) (row : Fin 3) (off : ℕ) (ho : o = ![row.val, off]) (l : Fin 16)
    (hl : off + l.val < 2048) :
    (gScr).view.readAt (Elt F) (Rect.unit (s := S3x2048) o S1x16.size hin).toLoadRect Pv (ix2 (0 : Fin 1) l)
      = Pv (ix2 row (⟨off + l.val, hl⟩ : Fin 2048)) := by
  subst ho
  show Pv ((Rect.unit (s := S3x2048) ![row.val, off] S1x16.size hin).toLoadRect.idx (ix2 (0 : Fin 1) l)) = _
  refine congrArg Pv (funext fun a => ?_)
  match a with
  | ⟨0, _⟩ => exact Fin.ext (by show row.val + 1 * 0 = row.val; omega)
  | ⟨1, _⟩ => exact Fin.ext (by show off + 1 * l.val = off + l.val; omega)

end Scratch

theorem aScr_writes_row_cons (f : aScr.view.ty.Contents (Elt F)) {r : Nat}
    (h : ∀ a, (![r, 0] : Fin 2 → Nat) a + S1x16.size a ≤ S16x16.size a)
    (v : (Rect.unit (s := S16x16) ![r, 0] S1x16.size h).shape.Idx → Elt F .f32)
    (Lst : List (View.Piece (Elt F) S16x16 .f32)) (x y : Fin 16) :
    (aScr.view.writes (Elt F) f (⟨Rect.unit (s := S16x16) ![r, 0] S1x16.size h, v⟩ :: Lst)) (ix2 x y)
      = if x.val = r then v (ix2 (0 : Fin 1) y) else (aScr.view.writes (Elt F) f Lst) (ix2 x y) := by
  by_cases hx : x.val = r
  · rw [if_pos hx]
    exact View.read_writes_cons_unit_of_mem aScr.view f h v Lst (ix2 x y) (ix2 (0 : Fin 1) y) rfl
      (fun b => by
        match b with
        | ⟨0, _⟩ => show x.val = r + 0; omega
        | ⟨1, _⟩ => show y.val = 0 + y.val; omega)
  · rw [if_neg hx]
    exact View.read_writes_cons_unit_of_not_mem aScr.view f h v Lst (ix2 x y) rfl (0 : Fin 2)
      (by show x.val < r ∨ r + 1 ≤ x.val; omega)

theorem aScr_read_whole (g : aScr.view.ty.Contents (Elt F)) (x y : Fin 16) :
    View.read (Elt F) ((aScr : Memref sig .scVector .vmem S16x16 .f32).access (Rect.whole S16x16)) g (ix2 x y)
      = g (ix2 x y) := by
  show g ((Rect.whole S16x16).emb (ix2 x y)) = g (ix2 x y)
  refine congrArg g (funext fun b => ?_)
  match b with
  | ⟨0, _⟩ => exact Fin.ext (by show 0 + 1 * x.val = x.val; omega)
  | ⟨1, _⟩ => exact Fin.ext (by show 0 + 1 * y.val = y.val; omega)

theorem aScr_rows {d : Dev nD} {L : grid0.Coords} (fa : Buf (Elt F) ((thrV d L).loc cc0_scratch4))
    (a : Fin 16 → FVec F S16 .f32) (ln c : Fin 16) :
    (View.read (Elt F) ((aScr : Memref sig .scVector .vmem S16x16 .f32).access (Rect.whole S16x16))
      (aScr.view.writes (Elt F) fa
        [⟨Rect.unit (s := S16x16) ![15, 0] S1x16.size inb_S16x16_S1x16_15_0, shapeCast S1x16 (a 15) shapeCasts_S16_S1x16⟩,
          ⟨Rect.unit (s := S16x16) ![14, 0] S1x16.size inb_S16x16_S1x16_14_0, shapeCast S1x16 (a 14) shapeCasts_S16_S1x16⟩,
          ⟨Rect.unit (s := S16x16) ![13, 0] S1x16.size inb_S16x16_S1x16_13_0, shapeCast S1x16 (a 13) shapeCasts_S16_S1x16⟩,
          ⟨Rect.unit (s := S16x16) ![12, 0] S1x16.size inb_S16x16_S1x16_12_0, shapeCast S1x16 (a 12) shapeCasts_S16_S1x16⟩,
          ⟨Rect.unit (s := S16x16) ![11, 0] S1x16.size inb_S16x16_S1x16_11_0, shapeCast S1x16 (a 11) shapeCasts_S16_S1x16⟩,
          ⟨Rect.unit (s := S16x16) ![10, 0] S1x16.size inb_S16x16_S1x16_10_0, shapeCast S1x16 (a 10) shapeCasts_S16_S1x16⟩,
          ⟨Rect.unit (s := S16x16) ![9, 0] S1x16.size inb_S16x16_S1x16_9_0, shapeCast S1x16 (a 9) shapeCasts_S16_S1x16⟩,
          ⟨Rect.unit (s := S16x16) ![8, 0] S1x16.size inb_S16x16_S1x16_8_0, shapeCast S1x16 (a 8) shapeCasts_S16_S1x16⟩,
          ⟨Rect.unit (s := S16x16) ![7, 0] S1x16.size inb_S16x16_S1x16_7_0, shapeCast S1x16 (a 7) shapeCasts_S16_S1x16⟩,
          ⟨Rect.unit (s := S16x16) ![6, 0] S1x16.size inb_S16x16_S1x16_6_0, shapeCast S1x16 (a 6) shapeCasts_S16_S1x16⟩,
          ⟨Rect.unit (s := S16x16) ![5, 0] S1x16.size inb_S16x16_S1x16_5_0, shapeCast S1x16 (a 5) shapeCasts_S16_S1x16⟩,
          ⟨Rect.unit (s := S16x16) ![4, 0] S1x16.size inb_S16x16_S1x16_4_0, shapeCast S1x16 (a 4) shapeCasts_S16_S1x16⟩,
          ⟨Rect.unit (s := S16x16) ![3, 0] S1x16.size inb_S16x16_S1x16_3_0, shapeCast S1x16 (a 3) shapeCasts_S16_S1x16⟩,
          ⟨Rect.unit (s := S16x16) ![2, 0] S1x16.size inb_S16x16_S1x16_2_0, shapeCast S1x16 (a 2) shapeCasts_S16_S1x16⟩,
          ⟨Rect.unit (s := S16x16) ![1, 0] S1x16.size inb_S16x16_S1x16_1_0, shapeCast S1x16 (a 1) shapeCasts_S16_S1x16⟩,
          ⟨Rect.unit (s := S16x16) ![0, 0] S1x16.size inb_S16x16_S1x16_0_0, shapeCast S1x16 (a 0) shapeCasts_S16_S1x16⟩])) (ix2 ln c)
      = a ln (ix1 c) := by
  rw [aScr_read_whole]
  iterate 16 rw [aScr_writes_row_cons]
  fin_cases ln <;> simp [shapeCast_a_1a_apply]

end Cert.Proof.ChamferBits

end
-- ==== Proof.Bits.TileFinal.lean ====
import proofs.«204275_g83442624626996_cont_9to1c4b_244_10_alg».proof.Proof.Bits.TileInv
import proofs.«204275_g83442624626996_cont_9to1c4b_244_10_alg».proof.Proof.TileSpec

noncomputable section

namespace Cert.Proof.ChamferBits

open Cert.Kernel Cert.Kernel.Gen

open Idealize.ShloMosaic
open Idealize.SL.Sem
open Cert.Chamfer
open Idealize.ShloMosaic.ValueIdx

variable {F : FTy → Type} [FloatOps F]

theorem sub_lt (L : grid0.Coords) : (L 1).val < 16 := (L 1).isLt

theorem half_lt (L : grid0.Coords) : (L 0).val < 2 := (L 0).isLt

theorem scrAt_eq_tc (X : S3x2048.Idx → F .f32) (C : TCloud.Idx → F .f32) (b : Fin 16)
    (hX : ∀ (k : Fin 3) (n : Fin 2048), X (ix2 k n) = C (ix3 b k n)) (B : Nat) (hB : B % 16 = b.val) (k n : Nat) :
    scrAt X k n = C (tcIdx B k n) := by
  have e : (⟨B % 16, Nat.mod_lt _ (by decide)⟩ : Fin 16) = b := Fin.ext hB
  unfold scrAt tcIdx
  rw [hX, e]

section Worker

variable (d : Dev nD) (L : grid0.Coords) (G P : TCloud.Idx → F .f32)
variable (Gv : Buf (Elt F) ((thrV d L).loc cc0_scratch0)) (Pv : Buf (Elt F) ((thrV d L).loc cc0_scratch1))

theorem dRow_eq_dK
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (r j : Nat) :
    dRow Pv (gxG d L Gv) (gyG d L Gv) (gzG d L Gv) r j
      = dK G P ((2 * (L 1).val + (L 0).val) / 2) (((2 * (L 1).val + (L 0).val) % 2) * 1024 + r) j := by
  have hb := sub_lt L
  have hh := half_lt L
  have hB : ((2 * (L 1).val + (L 0).val) / 2) % 16 = (⟨(L 1).val, sub_lt L⟩ : Fin 16).val := by
    show ((2 * (L 1).val + (L 0).val) / 2) % 16 = (L 1).val
    omega
  have hn : ((2 * (L 1).val + (L 0).val) % 2) * 1024 + r = 1024 * (L 0).val + r := by omega
  unfold dRow gxG gyG gzG dK
  rw [hn]
  simp only [scrAt_eq_tc Gv G _ hG _ hB, scrAt_eq_tc Pv P _ hP _ hB]

theorem rowVal_eq
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (i : Fin 1024) :
    rowVal d L Gv Pv i.val = rowOut G P (2 * (L 1).val + (L 0).val) i.val := by
  unfold rowVal rowOut laneMin
  simp only [dRow_eq_dK d L G P Gv Pv hG hP]

theorem colVal_eq
    (hG : ∀ (k : Fin 3) (n : Fin 2048), Gv (ix2 k n) = G (ix3 (⟨(L 1).val, sub_lt L⟩ : Fin 16) k n))
    (hP : ∀ (k : Fin 3) (n : Fin 2048), Pv (ix2 k n) = P (ix3 (⟨(L 1).val, sub_lt L⟩ : Fin 16) k n)) (j : Fin 2048) :
    colVal d L Gv Pv 1024 j.val = colOut G P (2 * (L 1).val + (L 0).val) j.val := by
  unfold colVal colOut
  simp only [dRow_eq_dK d L G P Gv Pv hG hP]

end Worker

end Cert.Proof.ChamferBits

end
-- ==== Proof.Bits.InnerLoops.lean ====
import proofs.«204275_g83442624626996_cont_9to1c4b_244_10_alg».proof.Proof.Bits.TileInv
import proofs.«204275_g83442624626996_cont_9to1c4b_244_10_alg».proof.Proof.Bits.PayLane
import proofs.«204275_g83442624626996_cont_9to1c4b_244_10_alg».proof.Proof.Bits.Offsets
import proofs.«204275_g83442624626996_cont_9to1c4b_244_10_alg».proof.Proof.Bits.ScratchIdx
import proofs.«204275_g83442624626996_cont_9to1c4b_244_10_alg».proof.Proof.Bits.TileFinal
import Idealize.ShloMosaic.Lib.WritesUnit

noncomputable section

namespace Cert.Proof.ChamferBits

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

section Idx

open Idealize.ShloMosaic.ValueIdx

variable (d : Dev nD) (L : grid0.Coords)

private theorem cScr_writes_hit (f : Buf (Elt F) ((thrV d L).loc cc0_scratch2)) (o : Fin 1 → ℕ)
    (hin : ∀ a, o a + S16.size a ≤ S2048.size a) (off : ℕ) (ho : o = ![off]) (w : Vec F S16 .f32) (j : Fin 2048)
    (l : Fin 16) (hj : j.val = off + l.val) :
    (cScr).view.writes (Elt F) f [⟨Rect.unit (s := S2048) o S16.size hin, w⟩] (ix1 j) = w (ix1 l) :=
  View.read_writes_cons_unit_of_mem (cScr).view f hin w [] (ix1 j) (ix1 l) ho
    (fun a => match a with | ⟨0, _⟩ => hj)

private theorem cScr_writes_miss (f : Buf (Elt F) ((thrV d L).loc cc0_scratch2)) (o : Fin 1 → ℕ)
    (hin : ∀ a, o a + S16.size a ≤ S2048.size a) (off : ℕ) (ho : o = ![off]) (w : Vec F S16 .f32) (j : Fin 2048)
    (hj : j.val < off ∨ off + 16 ≤ j.val) :
    (cScr).view.writes (Elt F) f [⟨Rect.unit (s := S2048) o S16.size hin, w⟩] (ix1 j) = f (ix1 j) :=
  View.read_writes_cons_unit_of_not_mem (cScr).view f hin w [] (ix1 j) ho (0 : Fin 1) hj

private theorem cScr_chunk_lane (f : Buf (Elt F) ((thrV d L).loc cc0_scratch2)) (o : Fin 1 → ℕ)
    (hin : ∀ a, o a + S16.size a ≤ S2048.size a) (off : ℕ) (ho : o = ![off]) (l : Fin 16) (hl : off + l.val < 2048) :
    (cScr).view.readAt (Elt F) (Rect.unit (s := S2048) o S16.size hin).toLoadRect f (ix1 l)
      = f (ix1 (⟨off + l.val, hl⟩ : Fin 2048)) := by
  subst ho
  exact congrArg f (funext fun a => match a with
    | ⟨0, _⟩ => Fin.ext (by show off + 1 * l.val = off + l.val; omega))

private theorem pScr_row_lane (Pv : Buf (Elt F) ((thrV d L).loc cc0_scratch1)) (o : Fin 2 → ℕ)
    (hin : ∀ a, o a + S1x16.size a ≤ S3x2048.size a) (row : Fin 3) (off : ℕ) (ho : o = ![row.val, off])
    (l : Fin 16) (hl : off + l.val < 2048) :
    (pScr).view.readAt (Elt F) (Rect.unit (s := S3x2048) o S1x16.size hin).toLoadRect Pv (ix2 (0 : Fin 1) l)
      = Pv (ix2 row (⟨off + l.val, hl⟩ : Fin 2048)) := by
  subst ho
  exact congrArg Pv (funext fun a => match a with
    | ⟨0, _⟩ => Fin.ext (by show row.val + 1 * 0 = row.val; omega)
    | ⟨1, _⟩ => Fin.ext (by show off + 1 * l.val = off + l.val; omega))

private theorem scrAt_eq (X : S3x2048.Idx → F .f32) (c j : Nat) (hc : c < 3) (hj : j < 2048) :
    scrAt X c j = X (ix2 (⟨c, hc⟩ : Fin 3) (⟨j, hj⟩ : Fin 2048)) := by
  simp only [scrAt, Nat.mod_eq_of_lt hc, Nat.mod_eq_of_lt hj]

private theorem pScr_at (Pv : Buf (Elt F) ((thrV d L).loc cc0_scratch1)) (o : Fin 2 → ℕ)
    (hin : ∀ a, o a + S1x16.size a ≤ S3x2048.size a) (row : Fin 3) (kk : ℕ) (hk : kk < 128) (ho : o = ![row.val, 16 * kk]) (l : Fin 16) :
    shapeCast S16 ((pScr).view.readAt (Elt F) (Rect.unit (s := S3x2048) o S1x16.size hin).toLoadRect Pv) shapeCasts_S1x16_S16 (ix1 l)
      = scrAt Pv row.val (16 * kk + l.val) :=
  (row_lane _ l).trans ((pScr_row_lane d L Pv o hin row (16 * kk) ho l (by omega)).trans (scrAt_eq Pv row.val _ row.isLt (by omega)).symm)

/-- Sixteen entries of the running column minima take eight more points each; every other entry keeps its value. -/
private theorem col_step (Pv : Buf (Elt F) ((thrV d L).loc cc0_scratch1)) (col0 f : Buf (Elt F) ((thrV d L).loc cc0_scratch2))
    (gx gy gz : Nat → F .f32) (r0 kk : ℕ) (hk : kk < 128) (o : Fin 1 → ℕ) (hin : ∀ a, o a + S16.size a ≤ S2048.size a)
    (ho : o = ![16 * kk]) (w : Vec F S16 .f32)
    (hf : ∀ j : Fin 2048, f (ix1 j)
      = if j.val < 16 * kk then foldFrom (col0 (ix1 j)) (fun r => dRow Pv gx gy gz (r0 + r) j.val) 8 else col0 (ix1 j))
    (hw : ∀ l : Fin 16, w (ix1 l)
      = foldFrom (col0 (ix1 (⟨16 * kk + l.val, by omega⟩ : Fin 2048))) (fun r => dRow Pv gx gy gz (r0 + r) (16 * kk + l.val)) 8)
    (j : Fin 2048) :
    (cScr).view.writes (Elt F) f [⟨Rect.unit (s := S2048) o S16.size hin, w⟩] (ix1 j)
      = if j.val < 16 * (kk + 1) then foldFrom (col0 (ix1 j)) (fun r => dRow Pv gx gy gz (r0 + r) j.val) 8 else col0 (ix1 j) := by
  by_cases h1 : j.val < 16 * kk
  · rw [cScr_writes_miss d L f o hin (16 * kk) ho w j (.inl h1), hf j, if_pos h1, if_pos (by omega)]
  by_cases h2 : j.val < 16 * kk + 16
  · obtain ⟨l, hj⟩ : ∃ l : Fin 16, j.val = 16 * kk + l.val :=
      ⟨⟨j.val - 16 * kk, by omega⟩, by show j.val = 16 * kk + (j.val - 16 * kk); omega⟩
    have ej : (⟨16 * kk + l.val, by omega⟩ : Fin 2048) = j := Fin.ext hj.symm
    rw [cScr_writes_hit d L f o hin (16 * kk) ho w j l hj, if_pos (by omega), hj, ← ej]
    exact hw l
  · rw [cScr_writes_miss d L f o hin (16 * kk) ho w j (.inr (by omega)), hf j, if_neg h1, if_neg (by omega)]

end Idx

section Rows

open Idealize.ShloMosaic.ValueIdx

variable (d : Dev nD) (L : grid0.Coords) (Gv : Buf (Elt F) ((thrV d L).loc cc0_scratch0)) (k : Fin k0_t2_loop.trips)

abbrev rowX : Vec F S1x16 .f32 :=
  (gScr).view.readAt (Elt F) (Rect.unit (s := S3x2048) (k0_off3 L k) S1x16.size (k0_off3_inb L k)).toLoadRect Gv
abbrev rowY : Vec F S1x16 .f32 :=
  (gScr).view.readAt (Elt F) (Rect.unit (s := S3x2048) (k0_off4 L k) S1x16.size (k0_off4_inb L k)).toLoadRect Gv
abbrev rowZ : Vec F S1x16 .f32 :=
  (gScr).view.readAt (Elt F) (Rect.unit (s := S3x2048) (k0_off5 L k) S1x16.size (k0_off5_inb L k)).toLoadRect Gv

omit [FloatOps F] in
theorem row_bound (l : Fin 16) : 1024 * (L 0).val + 16 * k.val + l.val < 2048 := by
  have hk : k.val < 64 := Nat.lt_of_lt_of_eq k.isLt k0_t2_trips
  have hh := half_lt L
  omega

omit [FloatOps F] in
theorem scr_idx (c : Fin 3) (l : Fin 16) :
    Gv (ix2 c (⟨1024 * (L 0).val + 16 * k.val + l.val, row_bound L k l⟩ : Fin 2048)) = scrAt Gv c.val (1024 * (L 0).val + (16 * k.val + l.val)) := by
  unfold scrAt
  have hb := row_bound L k l
  refine congrArg Gv (congrArg₂ (ix2 (n0 := 3) (n1 := 2048)) (Fin.ext ?_) (Fin.ext ?_))
  · show c.val = c.val % 3
    exact (Nat.mod_eq_of_lt c.isLt).symm
  · show 1024 * (L 0).val + 16 * k.val + l.val = (1024 * (L 0).val + (16 * k.val + l.val)) % 2048
    rw [Nat.mod_eq_of_lt (by omega)]; omega

omit [FloatOps F] in
theorem rowX_at (l : Fin 16) : rowX d L Gv k (ix2 (0 : Fin 1) l) = gxG d L Gv (16 * k.val + l.val) :=
  (gScr_row_lane d L Gv (k0_off3 L k) (k0_off3_inb L k) (0 : Fin 3) (1024 * (L 0).val + 16 * k.val) (k0_off3_eq L k) l (row_bound L k l)).trans
    (scr_idx d L Gv k 0 l)
omit [FloatOps F] in
theorem rowY_at (l : Fin 16) : rowY d L Gv k (ix2 (0 : Fin 1) l) = gyG d L Gv (16 * k.val + l.val) :=
  (gScr_row_lane d L Gv (k0_off4 L k) (k0_off4_inb L k) (1 : Fin 3) (1024 * (L 0).val + 16 * k.val) (k0_off4_eq L k) l (row_bound L k l)).trans
    (scr_idx d L Gv k 1 l)
omit [FloatOps F] in
theorem rowZ_at (l : Fin 16) : rowZ d L Gv k (ix2 (0 : Fin 1) l) = gzG d L Gv (16 * k.val + l.val) :=
  (gScr_row_lane d L Gv (k0_off5 L k) (k0_off5_inb L k) (2 : Fin 3) (1024 * (L 0).val + 16 * k.val) (k0_off5_eq L k) l (row_bound L k l)).trans
    (scr_idx d L Gv k 2 l)

theorem vX_at (l : Fin 16) : k0_pay27 (rowX d L Gv k) (ix1 l) = gxG d L Gv (16 * k.val + l.val) := (row_lane _ l).trans (rowX_at d L Gv k l)
theorem vY_at (l : Fin 16) : k0_pay28 (rowY d L Gv k) (ix1 l) = gyG d L Gv (16 * k.val + l.val) := (row_lane _ l).trans (rowY_at d L Gv k l)
theorem vZ_at (l : Fin 16) : k0_pay29 (rowZ d L Gv k) (ix1 l) = gzG d L Gv (16 * k.val + l.val) := (row_lane _ l).trans (rowZ_at d L Gv k l)

end Rows

section Inner

open Idealize.ShloMosaic.ValueIdx

variable (d : Dev nD) (L : grid0.Coords)
variable (Gv : Buf (Elt F) ((thrV d L).loc cc0_scratch0)) (Pv : Buf (Elt F) ((thrV d L).loc cc0_scratch1))
variable (col0 : Buf (Elt F) ((thrV d L).loc cc0_scratch2)) (k2 : Fin k0_t2_loop.trips)

def invBlk (k2 r0 kk : Nat) (acc : Acc8 F) : sProp 𝕄 :=
  invInner d L Pv col0 (fun r => gxG d L Gv (16 * k2 + r)) (fun r => gyG d L Gv (16 * k2 + r)) (fun r => gzG d L Gv (16 * k2 + r)) r0 kk acc

/-- Loop step for the first half-block (rows 0–7): sixteen more columns are compared. -/
theorem t3_region (v29 : FVec F S16 .f32) :
    ∀ (k : Fin k0_t3_loop.trips) (acc : Acc8 F),
      invBlk d L Gv Pv col0 k2.val 0 k.val acc
        ⊢ wp frame (wpE (defs₀ (F := F)) 𝒱₀ (thrV d L) none) Set.univ
            (k0_t3_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
              v29 (k0_pay27 (rowX d L Gv k2)) (k0_pay28 (rowY d L Gv k2)) (k0_pay29 (rowZ d L Gv k2)) (k0_pay30 (rowX d L Gv k2)) (k0_pay31 (rowY d L Gv k2)) (k0_pay32 (rowZ d L Gv k2))
              (k0_pay33 (rowX d L Gv k2)) (k0_pay34 (rowY d L Gv k2)) (k0_pay35 (rowZ d L Gv k2)) (k0_pay36 (rowX d L Gv k2)) (k0_pay37 (rowY d L Gv k2)) (k0_pay38 (rowZ d L Gv k2))
              (k0_pay39 (rowX d L Gv k2)) (k0_pay40 (rowY d L Gv k2)) (k0_pay41 (rowZ d L Gv k2)) (k0_pay42 (rowX d L Gv k2)) (k0_pay43 (rowY d L Gv k2)) k acc)
            (invBlk d L Gv Pv col0 k2.val 0 (k.val + 1)) := by
  intro k acc
  obtain ⟨a0, a1, a2, a3, a4, a5, a6, a7⟩ := acc
  unfold invBlk invInner
  iintro ⟨HP, ⟨%f, Hf, %hf⟩, %hacc⟩
  have hk : k.val < 128 := k0_t3_trips ▸ k.isLt

  have hx := pScr_at d L Pv _ (k0_off6_inb k) 0 k.val hk (k0_off6_eq k)
  have hy := pScr_at d L Pv _ (k0_off7_inb k) 1 k.val hk (k0_off7_eq k)
  have hz := pScr_at d L Pv _ (k0_off8_inb k) 2 k.val hk (k0_off8_eq k)
  have hc : ∀ l : Fin 16, (cScr).view.readAt (Elt F) (Rect.unit (s := S2048) (k0_off9 k) S16.size (k0_off9_inb k)).toLoadRect f (ix1 l)
      = col0 (ix1 (⟨16 * k.val + l.val, by omega⟩ : Fin 2048)) := fun l => by
    rw [cScr_chunk_lane d L f _ _ (16 * k.val) (k0_off9_eq k) l (by omega), hf, if_neg (by show ¬ (16 * k.val + l.val < 16 * k.val); omega)]
  sl_unfold [k0_t3_body]
  sl_exec
  sl_step
  isplitl [HP]
  · iexact HP
  isplitl [Hf]
  · iexists _
    isplitl [Hf]
    · iexact Hf
    ipureintro
    sl_unfold_run_names
    exact col_step d L Pv col0 f _ _ _ 0 k.val hk _ _ (k0_off9_eq k) _ hf fun l => by
      simp only [k0_pay54, k0_pay52, k0_pay50, k0_pay48, k0_pay46, k0_pay44, k0_pay13, k0_pay12, k0_pay11, k0_pay10, k0_pay8, k0_pay6,
        k0_pay4, k0_pay3, k0_pay2, k0_pay1, minimumf_at, addf_at, mulf_at, subf_at, broadcast_apply, lane_extract,
        k0_pay43, k0_pay42, k0_pay41, k0_pay40, k0_pay39, k0_pay38, k0_pay37, k0_pay36, k0_pay35, k0_pay34, k0_pay33, k0_pay32, k0_pay31,
        k0_pay30, hx, hy, hz, hc, vX_at, vY_at, vZ_at]
      rfl
  · ipureintro
    intro r l
    sl_unfold_run_names
    rw [minUpTo_succ, ← hacc r l]
    fin_cases r
    all_goals
      simp only [Acc8.get, k0_pay53, k0_pay52, k0_pay51, k0_pay50, k0_pay49, k0_pay48, k0_pay47, k0_pay46, k0_pay45, k0_pay44, k0_pay13,
        k0_pay12, k0_pay11, k0_pay9, k0_pay8, k0_pay7, k0_pay6, k0_pay5, k0_pay4, k0_pay3, k0_pay2, k0_pay1, minimumf_at, addf_at, mulf_at,
        subf_at, broadcast_apply, lane_extract,
        k0_pay43, k0_pay42, k0_pay41, k0_pay40, k0_pay39, k0_pay38, k0_pay37, k0_pay36, k0_pay35, k0_pay34, k0_pay33, k0_pay32, k0_pay31,
        k0_pay30, hx, hy, hz, vX_at, vY_at, vZ_at]
      rfl

/-- Loop step for the second half-block (rows 8–15). -/
theorem t4_region (v29 : FVec F S16 .f32) :
    ∀ (k : Fin k0_t4_loop.trips) (acc : Acc8 F),
      invBlk d L Gv Pv col0 k2.val 8 k.val acc
        ⊢ wp frame (wpE (defs₀ (F := F)) 𝒱₀ (thrV d L) none) Set.univ
            (k0_t4_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
              v29 (k0_pay27 (rowX d L Gv k2)) (k0_pay28 (rowY d L Gv k2)) (k0_pay29 (rowZ d L Gv k2)) (k0_pay55 (k0_pay27 (rowX d L Gv k2))) (k0_pay56 (k0_pay28 (rowY d L Gv k2))) (k0_pay57 (k0_pay29 (rowZ d L Gv k2)))
              (k0_pay58 (k0_pay27 (rowX d L Gv k2))) (k0_pay59 (k0_pay28 (rowY d L Gv k2))) (k0_pay60 (k0_pay29 (rowZ d L Gv k2))) (k0_pay61 (k0_pay27 (rowX d L Gv k2))) (k0_pay62 (k0_pay28 (rowY d L Gv k2))) (k0_pay63 (k0_pay29 (rowZ d L Gv k2)))
              (k0_pay64 (k0_pay27 (rowX d L Gv k2))) (k0_pay65 (k0_pay28 (rowY d L Gv k2))) (k0_pay66 (k0_pay29 (rowZ d L Gv k2))) k acc)
            (invBlk d L Gv Pv col0 k2.val 8 (k.val + 1)) := by
  intro k acc
  obtain ⟨a0, a1, a2, a3, a4, a5, a6, a7⟩ := acc
  unfold invBlk invInner
  iintro ⟨HP, ⟨%f, Hf, %hf⟩, %hacc⟩
  have hk : k.val < 128 := k0_t4_trips ▸ k.isLt

  have hx := pScr_at d L Pv _ (k0_off10_inb k) 0 k.val hk (k0_off10_eq k)
  have hy := pScr_at d L Pv _ (k0_off11_inb k) 1 k.val hk (k0_off11_eq k)
  have hz := pScr_at d L Pv _ (k0_off12_inb k) 2 k.val hk (k0_off12_eq k)
  have hc : ∀ l : Fin 16, (cScr).view.readAt (Elt F) (Rect.unit (s := S2048) (k0_off13 k) S16.size (k0_off13_inb k)).toLoadRect f (ix1 l)
      = col0 (ix1 (⟨16 * k.val + l.val, by omega⟩ : Fin 2048)) := fun l => by
    rw [cScr_chunk_lane d L f _ _ (16 * k.val) (k0_off13_eq k) l (by omega), hf, if_neg (by show ¬ (16 * k.val + l.val < 16 * k.val); omega)]
  sl_unfold [k0_t4_body]
  sl_exec
  sl_step
  isplitl [HP]
  · iexact HP
  isplitl [Hf]
  · iexists _
    isplitl [Hf]
    · iexact Hf
    ipureintro
    sl_unfold_run_names
    exact col_step d L Pv col0 f _ _ _ 8 k.val hk _ _ (k0_off13_eq k) _ hf fun l => by
      simp only [k0_pay78, k0_pay76, k0_pay74, k0_pay72, k0_pay70, k0_pay68, k0_pay67, k0_pay26, k0_pay25, k0_pay24, k0_pay23, k0_pay21,
        k0_pay19, k0_pay17, k0_pay16, k0_pay15, k0_pay14, minimumf_at, addf_at, mulf_at, subf_at, broadcast_apply, lane_extract,
        k0_pay66, k0_pay65, k0_pay64, k0_pay63, k0_pay62, k0_pay61, k0_pay60, k0_pay59, k0_pay58, k0_pay57, k0_pay56, k0_pay55,
        hx, hy, hz, hc, vX_at, vY_at, vZ_at]
      rfl
  · ipureintro
    intro r l
    sl_unfold_run_names
    rw [minUpTo_succ, ← hacc r l]
    fin_cases r
    all_goals
      simp only [Acc8.get, k0_pay77, k0_pay76, k0_pay75, k0_pay74, k0_pay73, k0_pay72, k0_pay71, k0_pay70, k0_pay69, k0_pay68, k0_pay67,
        k0_pay26, k0_pay25, k0_pay24, k0_pay22, k0_pay21, k0_pay20, k0_pay19, k0_pay18, k0_pay17, k0_pay16, k0_pay15, k0_pay14,
        minimumf_at, addf_at, mulf_at, subf_at, broadcast_apply, lane_extract,
        k0_pay66, k0_pay65, k0_pay64, k0_pay63, k0_pay62, k0_pay61, k0_pay60, k0_pay59, k0_pay58, k0_pay57, k0_pay56, k0_pay55,
        hx, hy, hz, vX_at, vY_at, vZ_at]
      rfl

end Inner

end Cert.Proof.ChamferBits

end
-- ==== Proof.Bits.Gather.lean ====
import proofs.«204275_g83442624626996_cont_9to1c4b_244_10_alg».proof.Proof.Gen.Kernel
import Idealize.ShloMosaic.Lib.SparseCore
import Idealize.ShloMosaic.Lib.ValueIdx
import Idealize.ShloMosaic.Lib.ValueLayout

namespace Cert.Proof.ChamferBits

open Idealize.ShloMosaic Idealize.ShloMosaic.ValueIdx Cert.Kernel Cert.Kernel.Gen

variable {F : FTy → Type} [FloatOps F]

theorem iota_lane (l : Fin 16) :
    (iota .scVector S16 32 [0] iota_S16_d0_w32_scVector : IVec S16 32) (ix1 l) = BitVec.ofNat 32 l.val := by
  show BitVec.ofNat 32 (0 * 16 + l.val) = BitVec.ofNat 32 l.val
  rw [Nat.zero_mul, Nat.zero_add]

theorem iota_lane_toNat (l : Fin 16) :
    ((iota .scVector S16 32 [0] iota_S16_d0_w32_scVector : IVec S16 32) (ix1 l)).toNat = l.val := by
  rw [iota_lane, BitVec.toNat_ofNat]
  exact Nat.mod_eq_of_lt (by omega)

theorem idx_inb (c : BitVec 32) (hc : c.toNat < 16) :
    ∀ a x, ((![iota .scVector S16 32 [0] iota_S16_d0_w32_scVector, broadcast S16 c] : Fin 2 → IVec S16 32) a x).toNat < S16x16.size a := by
  intro a x
  match a with
  | ⟨0, _⟩ =>
    show ((iota .scVector S16 32 [0] iota_S16_d0_w32_scVector : IVec S16 32) x).toNat < 16
    obtain ⟨l, rfl⟩ : ∃ l : Fin 16, x = ix1 l := ⟨x 0, eq_ix1 x⟩
    rw [iota_lane_toNat]
    exact l.isLt
  | ⟨1, _⟩ =>
    show c.toNat < 16
    exact hc

theorem gather_lane {e : EltTy} (g : Vec F S16x16 e) (c : BitVec 32) (hc : c.toNat < 16)
    (h : ∀ a x, ((![iota .scVector S16 32 [0] iota_S16_d0_w32_scVector, broadcast S16 c] : Fin 2 → IVec S16 32) a x).toNat < S16x16.size a)
    (l : Fin 16) :
    loadIdx g ![iota .scVector S16 32 [0] iota_S16_d0_w32_scVector, broadcast S16 c] h (ix1 l) = g (ix2 l (⟨c.toNat, hc⟩ : Fin 16)) := by
  show g (idxAt _ h (ix1 l)) = g (ix2 l (⟨c.toNat, hc⟩ : Fin 16))
  congr 1
  funext a
  match a with
  | ⟨0, _⟩ => exact Fin.ext (iota_lane_toNat l)
  | ⟨1, _⟩ => rfl

end Cert.Proof.ChamferBits
-- ==== Proof.Bits.OuterTrip.lean ====
import proofs.«204275_g83442624626996_cont_9to1c4b_244_10_alg».proof.Proof.Bits.InnerLoops
import proofs.«204275_g83442624626996_cont_9to1c4b_244_10_alg».proof.Proof.Bits.PayLane
import proofs.«204275_g83442624626996_cont_9to1c4b_244_10_alg».proof.Proof.Bits.Offsets
import proofs.«204275_g83442624626996_cont_9to1c4b_244_10_alg».proof.Proof.Bits.Gather
import proofs.«204275_g83442624626996_cont_9to1c4b_244_10_alg».proof.Proof.Bits.ScratchIdx
import proofs.«204275_g83442624626996_cont_9to1c4b_244_10_alg».proof.Proof.Bits.TileFinal

noncomputable section

namespace Cert.Proof.ChamferBits

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable [FloatOps F]

section Outer

open Idealize.ShloMosaic.ValueIdx

variable (d : Dev nD) (L : grid0.Coords)
variable (Gv : Buf (Elt F) ((thrV d L).loc cc0_scratch0)) (Pv : Buf (Elt F) ((thrV d L).loc cc0_scratch1))

theorem fold_two_blocks (f : Nat → F .f32) (n : Nat) :
    foldFrom (foldFrom (minUpTo f n) (fun r => f (n + (0 + r))) 8) (fun r => f (n + (8 + r))) 8 = minUpTo f (n + 16) := rfl

omit [FloatOps F] in
theorem trips3 : Scf.trips k0_t3_loop.lb k0_t3_loop.ub k0_t3_loop.st = 128 := k0_t3_trips
omit [FloatOps F] in
theorem trips4 : Scf.trips k0_t4_loop.lb k0_t4_loop.ub k0_t4_loop.st = 128 := k0_t4_trips

/-- Outer loop step: after both half-block loops the 16 × 16 table of partial minima is reduced along its rows. -/
theorem t2_region (v28 v32 : BitVec 32) : ∀ (k : Fin k0_t2_loop.trips) (acc : BitVec 32),
    inv2 d L Gv Pv k.val acc
      ⊢ wp frame (wpE (defs₀ (F := F)) 𝒱₀ (thrV d L) none) Set.univ
          (k0_t2_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3
            v28 v32 (iota .scVector S16 32 [0] iota_S16_d0_w32_scVector) k acc)
          (inv2 d L Gv Pv (k.val + 1)) := by
  intro k acc
  unfold inv2
  iintro ⟨HG, HP, ⟨%fc, Hc, %hfc⟩, ⟨%fr, Hr, %hfr⟩, ⟨%fa, Ha⟩⟩
  sl_exec
  sl_for (invBlk d L Gv Pv fc k.val 0) $$ [HP Hc]
  case region =>
    exact t3_region d L Gv Pv fc k _
  · unfold invBlk invInner
    isplitl [HP]; · iexact HP
    isplitl [Hc]
    · iexists fc; isplitl [Hc]; · iexact Hc
      ipureintro; intro j; simp
    · ipureintro; intro r l; fin_cases r <;> rfl
  iintro %acc3 HI
  unfold invBlk invInner
  icases HI with ⟨HP, ⟨%fc3, Hc, %hfc3⟩, %hacc3⟩
  sl_exec
  sl_for (invBlk d L Gv Pv fc3 k.val 8) $$ [HP Hc]
  case region =>
    exact t4_region d L Gv Pv fc3 k _
  · unfold invBlk invInner
    isplitl [HP]; · iexact HP
    isplitl [Hc]
    · iexists fc3; isplitl [Hc]; · iexact Hc
      ipureintro; intro j; simp
    · ipureintro; intro r l; fin_cases r <;> rfl
  iintro %acc4 HI
  unfold invBlk invInner
  icases HI with ⟨HP, ⟨%fc4, Hc, %hfc4⟩, %hacc4⟩
  have hc1 : k0_chk1 _ _ := idx_inb 0#32 (by decide)
  have hc2 : k0_chk2 _ _ := idx_inb 1#32 (by decide)
  have hc3 : k0_chk3 _ _ := idx_inb 2#32 (by decide)
  have hc4 : k0_chk4 _ _ := idx_inb 3#32 (by decide)
  have hc5 : k0_chk5 _ _ := idx_inb 4#32 (by decide)
  have hc6 : k0_chk6 _ _ := idx_inb 5#32 (by decide)
  have hc7 : k0_chk7 _ _ := idx_inb 6#32 (by decide)
  have hc8 : k0_chk8 _ _ := idx_inb 7#32 (by decide)
  have hc9 : k0_chk9 _ _ := idx_inb 8#32 (by decide)
  have hc10 : k0_chk10 _ _ := idx_inb 9#32 (by decide)
  have hc11 : k0_chk11 _ _ := idx_inb 10#32 (by decide)
  have hc12 : k0_chk12 _ _ := idx_inb 11#32 (by decide)
  have hc13 : k0_chk13 _ _ := idx_inb 12#32 (by decide)
  have hc14 : k0_chk14 _ _ := idx_inb 13#32 (by decide)
  have hc15 : k0_chk15 _ _ := idx_inb 14#32 (by decide)
  have hc16 : k0_chk16 _ _ := idx_inb 15#32 (by decide)
  sl_exec
  iterate 16 (iapply (SparseCore.wp_vectorLoadIdx 𝒱₀ (thrV d L) none Set.univ (base := aScr) (S := Finset.univ) (q := fullShare) (Finset.subset_univ _)) $$ Ha; iintro Ha; sl_exec)
  sl_step
  isplitl [HG]; · iexact HG
  isplitl [HP]; · iexact HP
  isplitl [Hc]
  · iexists fc4; isplitl [Hc]; · iexact Hc
    ipureintro; intro j
    have hj := j.isLt
    rw [hfc4 j, if_pos (by rw [trips4]; omega), hfc3 j, if_pos (by rw [trips3]; omega), hfc j]
    exact fold_two_blocks (fun r => dRow Pv (gxG d L Gv) (gyG d L Gv) (gzG d L Gv) r j.val) (16 * k.val)
  isplitl [Hr]
  · iexists _; isplitl [Hr]; · iexact Hr
    ipureintro; intro i hi
    sl_unfold_run_names
    rw [rScr_writes_at d L fr (k0_off14 k) (k0_off14_inb k) (16 * k.val) (k0_off14_eq k)]
    by_cases h : 16 * k.val ≤ i.val ∧ i.val < 16 * k.val + 16
    · rw [dif_pos h]
      generalize hA : aScr.view.writes (Elt F) fa _ = A
      generalize hq : (⟨i.val - 16 * k.val, _⟩ : Fin 16) = ln
      have hv : i.val = 16 * k.val + ln.val := by
        have := congrArg Fin.val hq; simp only at this; omega
      simp only [trips3] at hacc3
      simp only [trips4] at hacc4

      have hrow : ∀ c : Fin 16, View.read (Elt F) ((aScr : Memref sig .scVector .vmem S16x16 .f32).access (Rect.whole S16x16)) A (ix2 ln c)
          = minUpTo (fun cc => dRow Pv (gxG d L Gv) (gyG d L Gv) (gzG d L Gv) (16 * k.val + ln.val) (16 * cc + c.val)) 128 := by
        intro c
        subst hA
        refine (aScr_rows fa (fun r : Fin 16 => match r with | 0 => acc3.1 | 1 => acc3.2.1 | 2 => acc3.2.2.1 | 3 => acc3.2.2.2.1 | 4 => acc3.2.2.2.2.1 | 5 => acc3.2.2.2.2.2.1 | 6 => acc3.2.2.2.2.2.2.1 | 7 => acc3.2.2.2.2.2.2.2 | 8 => acc4.1 | 9 => acc4.2.1 | 10 => acc4.2.2.1 | 11 => acc4.2.2.2.1 | 12 => acc4.2.2.2.2.1 | 13 => acc4.2.2.2.2.2.1 | 14 => acc4.2.2.2.2.2.2.1 | _ => acc4.2.2.2.2.2.2.2) ln c).trans ?_
        fin_cases ln
        · exact hacc3 0 c
        · exact hacc3 1 c
        · exact hacc3 2 c
        · exact hacc3 3 c
        · exact hacc3 4 c
        · exact hacc3 5 c
        · exact hacc3 6 c
        · exact hacc3 7 c
        · exact hacc4 0 c
        · exact hacc4 1 c
        · exact hacc4 2 c
        · exact hacc4 3 c
        · exact hacc4 4 c
        · exact hacc4 5 c
        · exact hacc4 6 c
        · exact hacc4 7 c

      have leaf : ∀ (c : BitVec 32) (hc : c.toNat < 16) (hh : ∀ a x, ((![iota .scVector S16 32 [0] iota_S16_d0_w32_scVector, broadcast S16 c] : Fin 2 → IVec S16 32) a x).toNat < S16x16.size a),
          loadIdx (View.read (Elt F) ((aScr : Memref sig .scVector .vmem S16x16 .f32).access (Rect.whole S16x16)) A) ![iota .scVector S16 32 [0] iota_S16_d0_w32_scVector, broadcast S16 c] hh (ix1 ln)
            = minUpTo (fun cc => dRow Pv (gxG d L Gv) (gyG d L Gv) (gzG d L Gv) (16 * k.val + ln.val) (16 * cc + c.toNat)) 128 :=
        fun c hc hh => (gather_lane _ c hc hh ln).trans (hrow ⟨c.toNat, hc⟩)
      rw [hv]
      unfold rowVal
      simp only [tree16, k0_pay79, minimumf_at]
      rw [leaf 0#32 (by decide), leaf 1#32 (by decide), leaf 2#32 (by decide), leaf 3#32 (by decide), leaf 4#32 (by decide), leaf 5#32 (by decide), leaf 6#32 (by decide), leaf 7#32 (by decide), leaf 8#32 (by decide), leaf 9#32 (by decide), leaf 10#32 (by decide), leaf 11#32 (by decide), leaf 12#32 (by decide), leaf 13#32 (by decide), leaf 14#32 (by decide), leaf 15#32 (by decide)]
      rfl
    · rw [dif_neg h]; exact hfr i (by omega)
  · iexists _; iexact Ha

end Outer

end Cert.Proof.ChamferBits

end
-- ==== Proof.Bits.ExitMath.lean ====
import proofs.«204275_g83442624626996_cont_9to1c4b_244_10_alg».proof.Proof.Bits.TileFinal
import proofs.«204275_g83442624626996_cont_9to1c4b_244_10_alg».proof.Proof.Bits.ScratchIdx
import proofs.«204275_g83442624626996_cont_9to1c4b_244_10_alg».proof.Proof.Bits.TileInv

noncomputable section

namespace Cert.Proof.ChamferBits

open Cert.Kernel Cert.Kernel.Gen

open Idealize.ShloMosaic
open Idealize.SL.Sem
open Cert.Chamfer
open Idealize.ShloMosaic.ValueIdx

variable {F : FTy → Type} [FloatOps F]

variable (m : (ℓ : Loc nD τ sig) → Buf (Elt F) ℓ) (d : Dev nD) (L : grid0.Coords)

theorem slab_idx (k : Fin 3) (n : Fin 2048) :
    (Rect.unit (s := S16x3x2048) (k0_off1 L) S1x3x2048.size (k0_off1_inb L)).emb
        (Shape.reshapeEquiv squeezes_S1x3x2048_S3x2048.numel_eq (ix2 k n))
      = ix3 (⟨(L 1).val, sub_lt L⟩ : Fin 16) k n := by
  rw [reshapeEquiv_ix2_1ab]
  have ho := k0_off1_eq L
  funext a
  match a with
  | ⟨0, _⟩ => exact Fin.ext (by show k0_off1 L 0 + 1 * 0 = (L 1).val; rw [ho]; show (L 1).val + 1 * 0 = (L 1).val; omega)
  | ⟨1, _⟩ => exact Fin.ext (by show k0_off1 L 1 + 1 * k.val = k.val; rw [ho]; show 0 + 1 * k.val = k.val; omega)
  | ⟨2, _⟩ => exact Fin.ext (by show k0_off1 L 2 + 1 * n.val = n.val; rw [ho]; show 0 + 1 * n.val = n.val; omega)

theorem landed_G (k : Fin 3) (n : Fin 2048) :
    (ReadAs.same.apply (View.read (Elt F) (gSl L).view (G0 m d))) (ix2 k n)
      = G0 m d (ix3 (⟨(L 1).val, sub_lt L⟩ : Fin 16) k n) :=
  congrArg (G0 m d) (slab_idx L k n)

theorem landed_P (k : Fin 3) (n : Fin 2048) :
    (ReadAs.same.apply (View.read (Elt F) (pSl L).view (P0 m d))) (ix2 k n)
      = P0 m d (ix3 (⟨(L 1).val, sub_lt L⟩ : Fin 16) k n) :=
  congrArg (P0 m d) (slab_idx L k n)

private theorem ix1_eta {n : Nat} (x : (⟨1, ![n]⟩ : Shape).Idx) : x = ix1 (x 0) :=
  funext fun a => match a with | ⟨0, _⟩ => rfl

private theorem rSl_emb (b : Fin 1024) :
    (rSl L).view.emb (ix1 b) = ix2 (⟨2 * (L 1).val + (L 0).val, by have := sub_lt L; have := half_lt L; omega⟩ : Fin 32) b := by
  show (Rect.unit (s := S32x1024) (k0_off15 L) S1x1024.size (k0_off15_inb L)).emb
      (Shape.reshapeEquiv squeezes_S1x1024_S1024.numel_eq (ix1 b)) = _
  rw [Shape.reshapeEquiv_cons_one]
  have ho := k0_off15_eq L
  funext a
  match a with
  | ⟨0, _⟩ => exact Fin.ext (by show k0_off15 L 0 + 1 * 0 = 2 * (L 1).val + (L 0).val; rw [ho]; show 2 * (L 1).val + (L 0).val + 1 * 0 = _; omega)
  | ⟨1, _⟩ => exact Fin.ext (by show k0_off15 L 1 + 1 * b.val = b.val; rw [ho]; show 0 + 1 * b.val = b.val; omega)

private theorem cSl_emb (b : Fin 2048) :
    (cSl L).view.emb (ix1 b) = ix2 (⟨2 * (L 1).val + (L 0).val, by have := sub_lt L; have := half_lt L; omega⟩ : Fin 32) b := by
  show (Rect.unit (s := S32x2048) (k0_off16 L) S1x2048.size (k0_off16_inb L)).emb
      (Shape.reshapeEquiv squeezes_S1x2048_S2048.numel_eq (ix1 b)) = _
  rw [Shape.reshapeEquiv_cons_one]
  have ho := k0_off16_eq L
  funext a
  match a with
  | ⟨0, _⟩ => exact Fin.ext (by show k0_off16 L 0 + 1 * 0 = 2 * (L 1).val + (L 0).val; rw [ho]; show 2 * (L 1).val + (L 0).val + 1 * 0 = _; omega)
  | ⟨1, _⟩ => exact Fin.ext (by show k0_off16 L 1 + 1 * b.val = b.val; rw [ho]; show 0 + 1 * b.val = b.val; omega)

theorem rows_exit (fr : Buf (Elt F) (rLoc d)) (frF : Buf (Elt F) ((thrV d L).loc cc0_scratch3))
    (hrF : ∀ i : Fin 1024, frF (ix1 i)
      = rowVal d L (ReadAs.same.apply (View.read (Elt F) (gSl L).view (G0 m d)))
          (ReadAs.same.apply (View.read (Elt F) (pSl L).view (P0 m d))) i.val) :
    ∀ i ∈ (rSl L).view.set,
      ((rSl L).view.writes (Elt F) fr [⟨Rect.whole S1024, ReadAs.same.apply (View.read (Elt F) rScr.view frF)⟩]) i
        = R1 m d i := by
  intro i hi
  obtain ⟨x, -, rfl⟩ := Finset.mem_map.mp hi
  obtain ⟨b, rfl⟩ : ∃ b : Fin 1024, x = ix1 b := ⟨x 0, ix1_eta x⟩

  have hw := congrFun (View.read_writes_whole (rSl L).view fr (ReadAs.same.apply (View.read (Elt F) rScr.view frF))) (ix1 b)
  rw [View.read_apply] at hw
  have hw' : ((rSl L).view.writes (Elt F) fr [⟨Rect.whole S1024, ReadAs.same.apply (View.read (Elt F) rScr.view frF)⟩])
      ((rSl L).view.emb (ix1 b)) = ReadAs.same.apply (View.read (Elt F) rScr.view frF) (ix1 b) :=
    eq_of_heq (cast_eq_iff_heq.mp hw)
  have e2 : ReadAs.same.apply (View.read (Elt F) rScr.view frF) (ix1 b) = frF (ix1 b) := rfl

  have hr : frF (ix1 b) = R1 m d ((rSl L).view.emb (ix1 b)) := by
    rw [rSl_emb, hrF, rowVal_eq d L (G0 m d) (P0 m d) _ _ (landed_G m d L) (landed_P m d L)]
    rfl
  exact hw'.trans (e2.trans hr)

theorem cols_exit (fc : Buf (Elt F) (cLoc d)) (fcF : Buf (Elt F) ((thrV d L).loc cc0_scratch2))
    (hcF : ∀ j : Fin 2048, fcF (ix1 j)
      = colVal d L (ReadAs.same.apply (View.read (Elt F) (gSl L).view (G0 m d)))
          (ReadAs.same.apply (View.read (Elt F) (pSl L).view (P0 m d))) 1024 j.val) :
    ∀ i ∈ (cSl L).view.set,
      ((cSl L).view.writes (Elt F) fc [⟨Rect.whole S2048, ReadAs.same.apply (View.read (Elt F) cScr.view fcF)⟩]) i
        = C1 m d i := by
  intro i hi
  obtain ⟨x, -, rfl⟩ := Finset.mem_map.mp hi
  obtain ⟨b, rfl⟩ : ∃ b : Fin 2048, x = ix1 b := ⟨x 0, ix1_eta x⟩

  have hw := congrFun (View.read_writes_whole (cSl L).view fc (ReadAs.same.apply (View.read (Elt F) cScr.view fcF))) (ix1 b)
  rw [View.read_apply] at hw
  have hw' : ((cSl L).view.writes (Elt F) fc [⟨Rect.whole S2048, ReadAs.same.apply (View.read (Elt F) cScr.view fcF)⟩])
      ((cSl L).view.emb (ix1 b)) = ReadAs.same.apply (View.read (Elt F) cScr.view fcF) (ix1 b) :=
    eq_of_heq (cast_eq_iff_heq.mp hw)
  have e2 : ReadAs.same.apply (View.read (Elt F) cScr.view fcF) (ix1 b) = fcF (ix1 b) := rfl

  have hr : fcF (ix1 b) = C1 m d ((cSl L).view.emb (ix1 b)) := by
    rw [cSl_emb, hcF, colVal_eq d L (G0 m d) (P0 m d) _ _ (landed_G m d L) (landed_P m d L)]
    rfl
  exact hw'.trans (e2.trans hr)

end Cert.Proof.ChamferBits

end
-- ==== Proof.Bits.TileBody.lean ====
import proofs.«204275_g83442624626996_cont_9to1c4b_244_10_alg».proof.Proof.Bits.OuterTrip
import proofs.«204275_g83442624626996_cont_9to1c4b_244_10_alg».proof.Proof.Bits.TileFinal
import proofs.«204275_g83442624626996_cont_9to1c4b_244_10_alg».proof.Proof.Bits.ExitMath

noncomputable section

namespace Cert.Proof.ChamferBits

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem
open Cert.Chamfer

variable {F : FTy → Type}

local notation "𝕄" => MM F

variable (m : (ℓ : Loc nD τ sig) → Buf (Elt F) ℓ)
variable [FloatOps F]

section Tile

open Idealize.ShloMosaic.ValueIdx

variable (d : Dev nD) (L : grid0.Coords)

theorem pts_gSl (q : PosShare TreeShare) (f : Buf (Elt F) (gLoc d)) :
    ((gSl L).view.loc (thrV d L) ↦[(gSl L).view.set]{q} f : sProp 𝕄) = gLoc d ↦[gSet (sL L)]{q} f := by rw [set_gSl]
theorem pts_pSl (q : PosShare TreeShare) (f : Buf (Elt F) (pLoc d)) :
    ((pSl L).view.loc (thrV d L) ↦[(pSl L).view.set]{q} f : sProp 𝕄) = pLoc d ↦[gSet (sL L)]{q} f := by rw [set_pSl]
theorem pts_rSl (f : Buf (Elt F) (rLoc d)) :
    ((rSl L).view.loc (thrV d L) ↦[(rSl L).view.set]{fullShare} f : sProp 𝕄) = rLoc d ↦[rSet (wid (cL L) (sL L))]{fullShare} f := by rw [set_rSl]
theorem pts_cSl (f : Buf (Elt F) (cLoc d)) :
    ((cSl L).view.loc (thrV d L) ↦[(cSl L).view.set]{fullShare} f : sProp 𝕄) = cLoc d ↦[cSet (wid (cL L) (sL L))]{fullShare} f := by rw [set_cSl]
theorem pts_whole (b : Ref sig .scVector) (f : Buf (Elt F) ((thrV d L).loc b)) :
    ((Memref.whole b).view.loc (thrV d L) ↦{fullShare} f : sProp 𝕄) = (thrV d L).loc b ↦{fullShare} f := rfl

def inv1 (k : Nat) (_ : BitVec 32) : sProp 𝕄 :=
  iprop(∃ f, ((cScr).view.loc (thrV d L) ↦{fullShare} f) ∗ ⌜∀ j : Fin 2048, j.val < 16 * k → f (ix1 j) = posInf⌝)

theorem t1_region (v28 : BitVec 32) : ∀ (k : Fin k0_t1_loop.trips) (acc : BitVec 32),
    inv1 (F := F) d L k.val acc
      ⊢ wp frame (wpE (defs₀ (F := F)) 𝒱₀ (thrV d L) none) Set.univ
          (k0_t1_body (F := F) L (Memref.whole main_v0_scv) (Memref.isWhole_whole _) (Memref.whole main_v1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3 v28 k acc)
          (inv1 (F := F) d L (k.val + 1)) := by
  intro k acc
  unfold inv1
  iintro ⟨%f, Hf, %hf⟩
  sl_exec
  sl_step
  iexists _; isplitl [Hf]; · iexact Hf
  ipureintro; intro j hj
  rw [cScr_writes_at d L f (k0_off2 k) (k0_off2_inb k) (16 * k.val) (k0_off2_eq k) k0_pay80 j]
  by_cases h : 16 * k.val ≤ j.val ∧ j.val < 16 * k.val + 16
  · rw [dif_pos h]; rfl
  · rw [dif_neg h]; exact hf j (by omega)

omit [FloatOps F] in
theorem trips1 : Scf.trips k0_t1_loop.lb k0_t1_loop.ub k0_t1_loop.st = 128 := k0_t1_trips
omit [FloatOps F] in
theorem trips2 : Scf.trips k0_t2_loop.lb k0_t2_loop.ub k0_t2_loop.st = 64 := k0_t2_trips

/-- A subcore's task computes the row and column minima assigned to it. -/
theorem tile_body : TileBody (F := F) m := by
  intro d L O W hO
  unfold tileGo tileTd
  simp only [tileProg, cc0__chamfer_body_eq_skeleton]; unfold cc0__chamfer_body_skel
  rw [(K (F := F)).scopedBufs_V facts d (cV L) (jV L), SparseCore.Cfg.scopedSems0_V (Val := Elt F) d (cV L) (jV L), ownSems0_V, ownBufs_V]
  iintro ⟨#Hlv, -, ⟨Hg, Hp, ⟨%fr, Hr⟩, ⟨%fc, Hc⟩⟩, ⟨⟨%f0, Hs0⟩, ⟨%f1, Hs1⟩, ⟨%f2, Hs2⟩, ⟨%f3, Hs3⟩, ⟨%f4, Hs4⟩, Hbufs⟩, ⟨Hsem0, Hsem1, Hsem2, Hsem3, Hsems⟩, HO⟩
  ihave Hmw := ((K (F := F)).mayWaits_none (thr := thrV d L) hO) $$ Hlv
  ihave Hg' := (Entails.of_eq (pts_gSl (F := F) d L _ _).symm) $$ Hg
  ihave Hp' := (Entails.of_eq (pts_pSl (F := F) d L _ _).symm) $$ Hp
  ihave Hr' := (Entails.of_eq (pts_rSl (F := F) d L _).symm) $$ Hr
  ihave Hc' := (Entails.of_eq (pts_cSl (F := F) d L _).symm) $$ Hc
  ihave Hs0' := (Entails.of_eq (pts_whole (F := F) d L cc0_scratch0 _).symm) $$ Hs0
  ihave Hs1' := (Entails.of_eq (pts_whole (F := F) d L cc0_scratch1 _).symm) $$ Hs1
  ihave Hs2' := (Entails.of_eq (pts_whole (F := F) d L cc0_scratch2 _).symm) $$ Hs2
  ihave Hs3' := (Entails.of_eq (pts_whole (F := F) d L cc0_scratch3 _).symm) $$ Hs3
  ihave Hs4' := (Entails.of_eq (pts_whole (F := F) d L cc0_scratch4 _).symm) $$ Hs4
  sl_exec
  sl_unfold_run_names
  rw [View.write_whole_univ, View.write_whole_univ]
  sl_for (inv1 (F := F) d L) $$ [Hs2']
  case region => exact t1_region d L _
  · unfold inv1
    iexists f2; isplitl [Hs2']; · iexact Hs2'
    ipureintro; intro j hj; omega
  iintro %acc1 HI
  unfold inv1
  icases HI with ⟨%fcol, Hcol, %hcol⟩
  sl_exec
  sl_for (inv2 (F := F) d L (ReadAs.same.apply ((gSl L).view.read (Elt F) (G0 m d))) (ReadAs.same.apply ((pSl L).view.read (Elt F) (P0 m d)))) $$ [Hs0' Hs1' Hcol Hs3' Hs4']
  case region => exact t2_region d L _ _ _ _
  · unfold inv2
    isplitl [Hs0']; · iexact Hs0'
    isplitl [Hs1']; · iexact Hs1'
    isplitl [Hcol]
    · iexists fcol; isplitl [Hcol]; · iexact Hcol
      ipureintro; intro j
      have hj := j.isLt
      rw [hcol j (by rw [trips1]; omega)]; rfl
    isplitl [Hs3']
    · iexists f3; isplitl [Hs3']; · iexact Hs3'
      ipureintro; intro i hi; omega
    · iexists f4; iexact Hs4'
  iintro %acc2 HI
  unfold inv2
  icases HI with ⟨HG, HP, ⟨%fcF, HcF, %hcF⟩, ⟨%frF, HrF, %hrF⟩, ⟨%faF, HaF⟩⟩
  sl_exec
  sl_step
  sl_unfold_run_names
  have hrows : ∀ i : Fin 1024, frF (ix1 i) = rowVal d L (ReadAs.same.apply ((gSl L).view.read (Elt F) (G0 m d))) (ReadAs.same.apply ((pSl L).view.read (Elt F) (P0 m d))) i.val :=
    fun i => hrF i (by have := i.isLt; rw [trips2]; omega)
  have hcols : ∀ j : Fin 2048, fcF (ix1 j) = colVal d L (ReadAs.same.apply ((gSl L).view.read (Elt F) (G0 m d))) (ReadAs.same.apply ((pSl L).view.read (Elt F) (P0 m d))) 1024 j.val := by
    intro j; have := hcF j; rw [trips2] at this; exact this
  isplitl [Hg' Hp' Hr' Hc']
  · isplitl [Hg']; · iapply (Entails.of_eq (pts_gSl (F := F) d L _ _)); iexact Hg'
    isplitl [Hp']; · iapply (Entails.of_eq (pts_pSl (F := F) d L _ _)); iexact Hp'
    isplitl [Hr']
    · iapply (Entails.of_eq (pts_rSl (F := F) d L _))
      iapply (Entails.of_eq (pointsTo_congr (rows_exit m d L fr frF hrows)))
      iexact Hr'
    · iapply (Entails.of_eq (pts_cSl (F := F) d L _))
      iapply (Entails.of_eq (pointsTo_congr (cols_exit m d L fc fcF hcols)))
      iexact Hc'
  isplitl [HG HP HcF HrF HaF Hbufs]
  · isplitl [HG]; · iexists _; iexact HG
    isplitl [HP]; · iexists _; iexact HP
    isplitl [HcF]; · iexists _; iexact HcF
    isplitl [HrF]; · iexists _; iexact HrF
    isplitl [HaF]; · iexists _; iexact HaF
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.ChamferBits

end
-- ==== Proof.Bits.Launch.lean ====
import proofs.«204275_g83442624626996_cont_9to1c4b_244_10_alg».proof.Proof.Bits.Setup

noncomputable section

namespace Cert.Proof.ChamferBits

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Chamfer

variable {F : FTy → Type}

local notation "𝕄" => MM F

variable (m : (ℓ : Loc nD τ sig) → Buf (Elt F) ℓ) (ρ : Dev nD → PrngReg)
variable [FloatOps F]

theorem P_st (d : Dev nD) (c : Fin ((K (F := F)).nCore 0)) :
    (P (F := F) m).st 0 d c = bigSep Finset.univ fun s : Fin 16 => tileGo m d (Fin.cast nCore_zero c) s := rfl
theorem P_dn (d : Dev nD) (c : Fin ((K (F := F)).nCore 0)) :
    (P (F := F) m).dn 0 d c = bigSep Finset.univ fun s : Fin 16 => tileTd m d (Fin.cast nCore_zero c) s := rfl
theorem P_go (d : Dev nD) (c : Fin ((K (F := F)).nCore 0)) (i : Fin ((K (F := F)).nSub 0)) :
    (P (F := F) m).go 0 d c i = tileGo m d (Fin.cast nCore_zero c) (Fin.cast nSub_zero i) := rfl
theorem P_td (d : Dev nD) (c : Fin ((K (F := F)).nCore 0)) (i : Fin ((K (F := F)).nSub 0)) :
    (P (F := F) m).td 0 d c i = tileTd m d (Fin.cast nCore_zero c) (Fin.cast nSub_zero i) := rfl
theorem P_x (q : Fin 1) (thr : Thread nD τ) : (P (F := F) m).x q thr = iprop(emp) := rfl

instance tileGo_storable (d : Dev nD) (c : Fin 2) (s : Fin 16) : BI.Storable (upEmb : UEmb _ 𝕄) (tileGo m d c s) := by
  unfold tileGo; infer_instance
instance tileTd_storable (d : Dev nD) (c : Fin 2) (s : Fin 16) : BI.Storable (upEmb : UEmb _ 𝕄) (tileTd m d c s) := by
  unfold tileTd; infer_instance

instance P_storable : (P (F := F) m).IsStorable where
  st q d c := match q with
    | 0 => (inferInstance : BI.Storable (upEmb : UEmb _ 𝕄) (bigSep Finset.univ fun s : Fin 16 => tileGo m d (Fin.cast nCore_zero c) s))
  dn q d c := match q with
    | 0 => (inferInstance : BI.Storable (upEmb : UEmb _ 𝕄) (bigSep Finset.univ fun s : Fin 16 => tileTd m d (Fin.cast nCore_zero c) s))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : TileBody (F := F) m) : (K (F := F)).TileObl (D (F := F)) 𝒱 (P m) v₀ 0 := by
  intro d c i O W hO _ _

  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := hb d (coordsV ⟨_, hc.1⟩ ⟨_, hc.2⟩) O W hO
  rw [show cL (coordsV ⟨((K (F := F)).core 0 c).val, hc.1⟩ ⟨((K (F := F)).sub 0 i).val, hc.2⟩) = Fin.cast nCore_zero c from Fin.ext rfl,
    show sL (coordsV ⟨((K (F := F)).core 0 c).val, hc.1⟩ ⟨((K (F := F)).sub 0 i).val, hc.2⟩) = Fin.cast nSub_zero i from Fin.ext rfl] at h
  simp only [P_x, P_go, P_td]
  exact h.trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  rw [P_st, P_dn]
  simp only [P_go, P_td]
  rw [bigSep_tasks (F := F) (fun s => tileGo m d (Fin.cast nCore_zero c) s), bigSep_tasks (F := F) (fun s => tileTd m d (Fin.cast nCore_zero c) s)]
  iintro H; imodintro
  isplitl [H]; · iexact H
  iintro H; iexact H

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem pts_cover {ℓ : Loc nD τ sig} {J : Type} [Fintype J] (Ks : J → Finset (Idx ℓ))
    (hd : ∀ t t', t ≠ t' → Disjoint (Ks t) (Ks t'))
    (hc : (Finset.univ : Finset J).biUnion Ks = Finset.univ) (q : PosShare TreeShare) (f : Buf (Elt F) ℓ) :
    (ℓ ↦{q} f : sProp 𝕄) = bigSep Finset.univ fun t => ℓ ↦[Ks t]{q} f := by
  rw [← pointsTo_biUnion Finset.univ Ks (fun t _ t' _ => hd t t'), hc]

def widEquiv : Fin 2 × Fin 16 ≃ Fin 32 where
  toFun p := wid p.1 p.2
  invFun w := (⟨w.val % 2, Nat.mod_lt _ (by decide)⟩, ⟨w.val / 2, by have := w.isLt; omega⟩)
  left_inv p := by
    rcases p with ⟨c, s⟩
    refine Prod.ext (Fin.ext ?_) (Fin.ext ?_)
    · show (2 * s.val + c.val) % 2 = c.val
      have := c.isLt; omega
    · show (2 * s.val + c.val) / 2 = s.val
      have := c.isLt; omega
  right_inv w := Fin.ext (by show 2 * (w.val / 2) + w.val % 2 = w.val; omega)

theorem regroup (Φ : Fin 32 → sProp 𝕄) :
    bigSep Finset.univ Φ = bigSep Finset.univ fun c : Fin 2 => bigSep Finset.univ fun s : Fin 16 => Φ (wid c s) :=
  (bigSep_univ_equiv widEquiv Φ).trans (bigSep_univ_prod fun p : Fin 2 × Fin 16 => Φ (widEquiv p))

theorem rows_eq {ℓ : Loc nD τ sig} (Ks : Fin 32 → Finset (Idx ℓ))
    (hd : ∀ t t', t ≠ t' → Disjoint (Ks t) (Ks t'))
    (hc : (Finset.univ : Finset (Fin 32)).biUnion Ks = Finset.univ) (f : Buf (Elt F) ℓ) :
    (ℓ ↦{fullShare} f : sProp 𝕄) = bigSep Finset.univ fun c : Fin 2 => bigSep Finset.univ fun s : Fin 16 => ℓ ↦[Ks (wid c s)]{fullShare} f :=
  (pts_cover Ks hd hc fullShare f).trans (regroup fun w => ℓ ↦[Ks w]{fullShare} f)

theorem reads_eq {ℓ : Loc nD τ sig} (Ks : Fin 16 → Finset (Idx ℓ))
    (hd : ∀ t t', t ≠ t' → Disjoint (Ks t) (Ks t'))
    (hc : (Finset.univ : Finset (Fin 16)).biUnion Ks = Finset.univ) (f : Buf (Elt F) ℓ) :
    (ℓ ↦{fullShare} f : sProp 𝕄)
      = iprop((ℓ ↦{Transfers.shareDrop fullShare 2} f)
          ∗ bigSep Finset.univ fun c : Fin 2 => bigSep Finset.univ fun s : Fin 16 => ℓ ↦[Ks s]{coreShare c} f) := by
  have e : (bigSep Finset.univ fun c : Fin 2 => (ℓ ↦{coreShare c} f : sProp 𝕄))
      = bigSep Finset.univ fun c : Fin 2 => bigSep Finset.univ fun s : Fin 16 => ℓ ↦[Ks s]{coreShare c} f :=
    bigSep_congr fun c _ => pts_cover Ks hd hc (coreShare c) f
  rw [← e]
  have h := Transfers.pointsTo_toks (Ix := HIx 1) (Name := ℕ) (U := UU) (Lvl := ℕ) (ℓ := ℓ) (S := Finset.univ) (f := f) fullShare 2
  exact BI.equiv_iff.mp ⟨h.1, h.2⟩

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = bigSep Finset.univ fun c : Fin 2 => bigSep Finset.univ fun s : Fin 16 => tileGo m d c s := by
  simp only [P_st]
  exact bigSep_cores (F := F) fun c => bigSep Finset.univ fun s : Fin 16 => tileGo m d c s
theorem dn0_eq (d : Dev nD) :
    (bigSep Finset.univ fun c : Fin ((K (F := F)).nCore 0) => (P m).dn 0 d c)
      = bigSep Finset.univ fun c : Fin 2 => bigSep Finset.univ fun s : Fin 16 => tileTd m d c s := by
  simp only [P_dn]
  exact bigSep_cores (F := F) fun c => bigSep Finset.univ fun s : Fin 16 => tileTd m d c s

theorem whole_eq (d : Dev nD) (fr : Buf (Elt F) (rLoc d)) (fc : Buf (Elt F) (cLoc d)) :
    (iprop((gLoc d ↦{fullShare} G0 m d) ∗ (pLoc d ↦{fullShare} P0 m d) ∗ (rLoc d ↦{fullShare} fr) ∗ (cLoc d ↦{fullShare} fc)) : sProp 𝕄)
      ⊣⊢ iprop((bigSep Finset.univ fun c : Fin 2 => bigSep Finset.univ fun s : Fin 16 =>
            iprop((gLoc d ↦[gSet s]{coreShare c} G0 m d) ∗ (pLoc d ↦[gSet s]{coreShare c} P0 m d)
              ∗ (rLoc d ↦[rSet (wid c s)]{fullShare} fr) ∗ (cLoc d ↦[cSet (wid c s)]{fullShare} fc)))
          ∗ (gLoc d ↦{Transfers.shareDrop fullShare 2} G0 m d) ∗ (pLoc d ↦{Transfers.shareDrop fullShare 2} P0 m d)) := by
  rw [reads_eq (ℓ := gLoc d) gSet (fun _ _ => Rect.part_disjoint hdivG) (Rect.biUnion_part hdivG),
    reads_eq (ℓ := pLoc d) gSet (fun _ _ => Rect.part_disjoint hdivG) (Rect.biUnion_part hdivG),
    rows_eq (ℓ := rLoc d) rSet (fun _ _ => Rect.part_disjoint hdivR) (Rect.biUnion_part hdivR),
    rows_eq (ℓ := cLoc d) cSet (fun _ _ => Rect.part_disjoint hdivC) (Rect.biUnion_part hdivC)]
  simp only [bigSep_sep']
  constructor
  · iintro ⟨⟨Hgd, Hg⟩, ⟨Hpd, Hp⟩, Hr, Hc⟩
    iframe
  · iintro ⟨⟨Hg, Hp, Hr, Hc⟩, Hgd, Hpd⟩
    iframe

theorem go_intro (d : Dev nD) (c : Fin 2) (s : Fin 16) :
    (iprop((gLoc d ↦[gSet s]{coreShare c} G0 m d) ∗ (pLoc d ↦[gSet s]{coreShare c} P0 m d)
        ∗ (rLoc d ↦[rSet (wid c s)]{fullShare} m (rLoc d)) ∗ (cLoc d ↦[cSet (wid c s)]{fullShare} m (cLoc d))) : sProp 𝕄)
      ⊢ tileGo m d c s := by
  unfold tileGo
  iintro ⟨Hg, Hp, Hr, Hc⟩
  isplitl [Hg]; · iexact Hg
  isplitl [Hp]; · iexact Hp
  isplitl [Hr]; · iexists _; iexact Hr
  iexists _; iexact Hc

theorem deal (d : Dev nD) :
    (iprop((gLoc d ↦{fullShare} G0 m d) ∗ (pLoc d ↦{fullShare} P0 m d) ∗ (rLoc d ↦{fullShare} m (rLoc d)) ∗ (cLoc d ↦{fullShare} m (cLoc d))) : sProp 𝕄)
      ⊢ iprop((bigSep Finset.univ fun c : Fin ((K (F := F)).nCore 0) => (P m).st 0 d c)
          ∗ (gLoc d ↦{Transfers.shareDrop fullShare 2} G0 m d) ∗ (pLoc d ↦{Transfers.shareDrop fullShare 2} P0 m d)) := by
  rw [st0_eq]
  exact (whole_eq m d _ _).1.trans (sep_mono_left (bigSep_mono fun c _ => bigSep_mono fun s _ => go_intro m d c s))

theorem gather (d : Dev nD) :
    iprop((bigSep Finset.univ fun c : Fin ((K (F := F)).nCore 0) => (P m).dn 0 d c)
          ∗ (gLoc d ↦{Transfers.shareDrop fullShare 2} G0 m d) ∗ (pLoc d ↦{Transfers.shareDrop fullShare 2} P0 m d))
      ⊢ (iprop((gLoc d ↦{fullShare} G0 m d) ∗ (pLoc d ↦{fullShare} P0 m d) ∗ (rLoc d ↦{fullShare} R1 m d) ∗ (cLoc d ↦{fullShare} C1 m d)) : sProp 𝕄) := by
  rw [dn0_eq]
  simp only [tileTd]
  exact (whole_eq m d (R1 m d) (C1 m d)).2

abbrev rA0 : DevRef τ sig := Proc.devRef .tc (main_arg0 : Ref sig .tc)
abbrev rA1 : DevRef τ sig := Proc.devRef .tc (main_arg1 : Ref sig .tc)
abbrev rG : DevRef τ sig := Proc.devRef .tc (main_v0 : Ref sig .tc)
abbrev rP : DevRef τ sig := Proc.devRef .tc (main_v1 : Ref sig .tc)
abbrev rR : DevRef τ sig := Proc.devRef .tc (main_v2_0 : Ref sig .tc)
abbrev rC : DevRef τ sig := Proc.devRef .tc (main_v2_1 : Ref sig .tc)
abbrev rO : DevRef τ sig := Proc.devRef .tc (main_v10 : Ref sig .tc)

def hostRefs : Finset (DevRef τ sig) := (StableHlo.tcRefs τ sig).filter fun b => ¬ b.isScoped

omit [FloatOps F] in

theorem unscoped_held (d : Dev nD) (W : Valuation τ sig (Elt F)) :
    (unscopedBufs d (fun b => W (Proc.devRef .tc b)) : sProp 𝕄) = held (T d) hostRefs W := by
  unfold unscopedBufs held hostRefs StableHlo.tcRefs
  rw [Finset.filter_map, bigSep_map]
  rfl

theorem mem_host (b : Ref sig .tc) (h : (Proc.devRef .tc b : DevRef τ sig).isScoped = false) : Proc.devRef .tc b ∈ hostRefs :=
  Finset.mem_filter.mpr ⟨StableHlo.devRef_mem_tcRefs b, fun h' => Bool.false_ne_true (h.symm.trans h')⟩

omit [FloatOps F] in

theorem sub_host (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

abbrev callRefs : Finset (DevRef τ sig) := {rG, rP, rR, rC}
abbrev finRefs : Finset (DevRef τ sig) := {rO, rA0, rA1}

theorem callRefs_sub : callRefs ⊆ hostRefs := by
  intro b hb
  simp only [Finset.mem_insert, Finset.mem_singleton] at hb
  rcases hb with rfl | rfl | rfl | rfl <;> exact mem_host _ rfl
theorem finRefs_sub : finRefs ⊆ hostRefs := by
  intro b hb
  simp only [Finset.mem_insert, Finset.mem_singleton] at hb
  rcases hb with rfl | rfl | rfl <;> exact mem_host _ rfl

omit [FloatOps F] in
theorem held_callRefs (d : Dev nD) (W : Valuation τ sig (Elt F)) :
    (held (T d) callRefs W : sProp 𝕄)
      = iprop((gLoc d ↦{fullShare} W rG) ∗ (pLoc d ↦{fullShare} W rP) ∗ (rLoc d ↦{fullShare} W rR) ∗ (cLoc d ↦{fullShare} W rC)) := by
  unfold held callRefs
  rw [SparseCore.bigSep_insert' (by decide), SparseCore.bigSep_insert' (by decide), SparseCore.bigSep_insert' (by decide), bigSep_singleton]
omit [FloatOps F] in
theorem held_finRefs (d : Dev nD) (W : Valuation τ sig (Elt F)) :
    (held (T d) finRefs W : sProp 𝕄)
      = iprop(((SparseCore.T d).loc main_v10 ↦{fullShare} W rO) ∗ (a0Loc d ↦{fullShare} W rA0) ∗ (a1Loc d ↦{fullShare} W rA1)) := by
  unfold held finRefs
  rw [SparseCore.bigSep_insert' (by decide), SparseCore.bigSep_insert' (by decide), bigSep_singleton]

abbrev opsA : List (HloOp τ sig (Elt F)) :=
  [ StableHlo.unary main_arg0 main_v0 ((transpose S16x3x2048 [0, 2, 1] · transposes_S16x2048x3_S16x3x2048_0_2_1) : (⟨S16x2048x3, .f32⟩ : BufTy).Contents (Elt F) → (⟨S16x3x2048, .f32⟩ : BufTy).Contents (Elt F)),
    StableHlo.unary main_arg1 main_v1 ((transpose S16x3x2048 [0, 2, 1] · transposes_S16x2048x3_S16x3x2048_0_2_1) : (⟨S16x2048x3, .f32⟩ : BufTy).Contents (Elt F) → (⟨S16x3x2048, .f32⟩ : BufTy).Contents (Elt F)) ]

abbrev opsB : List (HloOp τ sig (Elt F)) :=
  [ StableHlo.reshape main_v2_0 main_v3 rfl shapeCasts_S32x1024_S16x2048,
    StableHlo.reshape main_v2_1 main_v4 rfl shapeCasts_S32x2048_S16x2x2048,
    StableHlo.nullary main_cst (constant S_ .f32 0x7F800000#32),
    StableHlo.binary main_v4 main_cst main_v5 ((fun x v => Host.reduce FloatOps.minimumf x v reducesTo_S16x2x2048_S16x2048_d1 h_S_) : (⟨S16x2x2048, .f32⟩ : BufTy).Contents (Elt F) → (⟨S_, .f32⟩ : BufTy).Contents (Elt F) → (⟨S16x2048, .f32⟩ : BufTy).Contents (Elt F)),
    StableHlo.nullary main_cst_0 (constant S_ .f32 0x00000000#32),
    StableHlo.binary main_v3 main_cst_0 main_v6 ((fun x v => Host.reduceAdd x v reducesTo_S16x2048_S_d0_1 h_S_) : (⟨S16x2048, .f32⟩ : BufTy).Contents (Elt F) → (⟨S_, .f32⟩ : BufTy).Contents (Elt F) → (⟨S_, .f32⟩ : BufTy).Contents (Elt F)),
    StableHlo.nullary main_cst_1 (constant S_ .f32 0x47000000#32),
    StableHlo.binary main_v6 main_cst_1 main_v7 (Host.divf : (⟨S_, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_v5 main_cst_2 main_v8 ((fun x v => Host.reduceAdd x v reducesTo_S16x2048_S_d0_1 h_S_) : (⟨S16x2048, .f32⟩ : BufTy).Contents (Elt F) → (⟨S_, .f32⟩ : BufTy).Contents (Elt F) → (⟨S_, .f32⟩ : BufTy).Contents (Elt F)),
    StableHlo.nullary main_cst_3 (constant S_ .f32 0x47000000#32),
    StableHlo.binary main_v8 main_cst_3 main_v9 (Host.divf : (⟨S_, .f32⟩ : BufTy).Contents (Elt F) → (⟨S_, .f32⟩ : BufTy).Contents (Elt F) → (⟨S_, .f32⟩ : BufTy).Contents (Elt F)),
    StableHlo.binary main_v7 main_v9 main_v10 (addf : (⟨S_, .f32⟩ : BufTy).Contents (Elt F) → (⟨S_, .f32⟩ : BufTy).Contents (Elt F) → (⟨S_, .f32⟩ : BufTy).Contents (Elt F)) ]

theorem main_eq (d : Dev nD) :
    main (F := F) d = (StableHlo.seq opsA >>= fun _ => (K (F := F)).run d 0 >>= fun _ => StableHlo.seq opsB >>= fun u => pure u) := by
  simp only [main, StableHlo.seq, bind_assoc, pure_bind]

theorem opsA_tc : (opsA : List (HloOp τ sig (Elt F))).Forall fun op => op.bufs ⊆ StableHlo.tcRefs τ sig :=
  ⟨StableHlo.unary_bufs_sub .., StableHlo.unary_bufs_sub ..⟩
theorem opsB_tc : (opsB : List (HloOp τ sig (Elt F))).Forall fun op => op.bufs ⊆ StableHlo.tcRefs τ sig :=
  ⟨StableHlo.reshape_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub ..⟩
theorem opsA_sub : ∀ op ∈ (opsA : List (HloOp τ sig (Elt F))), op.bufs ⊆ hostRefs :=
  fun op hop => sub_host op (List.forall_iff_forall_mem.1 opsA_tc op hop)
theorem opsB_sub : ∀ op ∈ (opsB : List (HloOp τ sig (Elt F))), op.bufs ⊆ hostRefs :=
  fun op hop => sub_host op (List.forall_iff_forall_mem.1 opsB_tc op hop)
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h

def VA (d : Dev nD) : Valuation τ sig (Elt F) := StableHlo.after opsA (StableHlo.launchContents m d)
def VB (d : Dev nD) : Valuation τ sig (Elt F) := Function.update (Function.update (VA m d) rR (R1 m d)) rC (C1 m d)

theorem VA_g (d : Dev nD) : VA m d rG = G0 m d := by
  unfold VA; after_results; try rfl
theorem VA_p (d : Dev nD) : VA m d rP = P0 m d := by
  unfold VA; after_results; try rfl
theorem VA_r (d : Dev nD) : VA m d rR = m (rLoc d) := by
  unfold VA; after_results; try rfl
theorem VA_c (d : Dev nD) : VA m d rC = m (cLoc d) := by
  unfold VA; after_results; try rfl
theorem VA_a0 (d : Dev nD) : VA m d rA0 = m (a0Loc d) := by
  unfold VA; after_results; try rfl
theorem VA_a1 (d : Dev nD) : VA m d rA1 = m (a1Loc d) := by
  unfold VA; after_results; try rfl

theorem VB_other (d : Dev nD) {b : DevRef τ sig} (hr : b ≠ rR) (hc : b ≠ rC) : VB m d b = VA m d b := by
  unfold VB; rw [Function.update_of_ne hc, Function.update_of_ne hr]
theorem VB_r (d : Dev nD) : VB m d rR = R1 m d := by
  unfold VB; rw [Function.update_of_ne (show rR ≠ rC by decide), Function.update_self]
theorem VB_c (d : Dev nD) : VB m d rC = C1 m d := by
  unfold VB; rw [Function.update_self]

theorem afterB_o (W : Valuation τ sig (Elt F)) : StableHlo.after opsB W rO = hostTail (W rR) (W rC) := by
  after_results; try rfl
theorem afterB_a0 (W : Valuation τ sig (Elt F)) : StableHlo.after opsB W rA0 = W rA0 := by
  after_results; try rfl
theorem afterB_a1 (W : Valuation τ sig (Elt F)) : StableHlo.after opsB W rA1 = W rA1 := by
  after_results; try rfl

theorem notMem_ne {b : DevRef τ sig} (hb : b ∈ hostRefs \ callRefs) : b ≠ rR ∧ b ≠ rC :=
  ⟨fun e => (Finset.mem_sdiff.mp hb).2 (e ▸ (by decide : rR ∈ callRefs)), fun e => (Finset.mem_sdiff.mp hb).2 (e ▸ (by decide : rC ∈ callRefs))⟩

theorem held_call (d : Dev nD) :
    (held (T d) hostRefs (VA m d) : sProp 𝕄)
      = iprop(((gLoc d ↦{fullShare} G0 m d) ∗ (pLoc d ↦{fullShare} P0 m d) ∗ (rLoc d ↦{fullShare} m (rLoc d)) ∗ (cLoc d ↦{fullShare} m (cLoc d)))
          ∗ held (T d) (hostRefs \ callRefs) (VA m d)) := by
  rw [StableHlo.held_sub_split (T d) callRefs_sub (VA m d), held_callRefs, VA_g, VA_p, VA_r, VA_c]

theorem held_back (d : Dev nD) :
    (iprop(((gLoc d ↦{fullShare} G0 m d) ∗ (pLoc d ↦{fullShare} P0 m d) ∗ (rLoc d ↦{fullShare} R1 m d) ∗ (cLoc d ↦{fullShare} C1 m d))
          ∗ held (T d) (hostRefs \ callRefs) (VA m d)) : sProp 𝕄)
      = held (T d) hostRefs (VB m d) := by
  rw [StableHlo.held_sub_split (T d) callRefs_sub (VB m d), held_callRefs, VB_r, VB_c,
    VB_other m d (show rG ≠ rR by decide) (show rG ≠ rC by decide), VB_other m d (show rP ≠ rR by decide) (show rP ≠ rC by decide), VA_g, VA_p,
    StableHlo.held_congr (T d) (V := VB m d) (V' := VA m d) fun b hb => VB_other m d (notMem_ne hb).1 (notMem_ne hb).2]

abbrev FIN (d : Dev nD) : sProp 𝕄 :=
  iprop(((SparseCore.T d).loc main_v10 ↦{fullShare} (hostTail (rowsOut (G0 m d) (P0 m d)) (colsOut (G0 m d) (P0 m d)) : (⟨S_, .f32⟩ : BufTy).Contents (Elt F)))
    ∗ (a0Loc d ↦{fullShare} m (a0Loc d)) ∗ (a1Loc d ↦{fullShare} m (a1Loc d)))

theorem held_fin (d : Dev nD) : (held (T d) hostRefs (StableHlo.after opsB (VB m d)) : sProp 𝕄) ⊢ FIN m d := by
  rw [StableHlo.held_sub_split (T d) finRefs_sub, held_finRefs, afterB_o, afterB_a0, afterB_a1, VB_r, VB_c,
    VB_other m d (show rA0 ≠ rR by decide) (show rA0 ≠ rC by decide), VB_other m d (show rA1 ≠ rR by decide) (show rA1 ≠ rC by decide), VA_a0, VA_a1]
  iintro ⟨H, -⟩
  iexact H

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [main_eq, show (unscopedBufs d (fun b => m ((SparseCore.T d).loc b)) : sProp 𝕄) = held (T d) hostRefs (StableHlo.launchContents m d) from
    unscoped_held d (StableHlo.launchContents m d)]
  iintro ⟨#Hctx, Hst, ⟨Hb, Hheld, -, -⟩, -⟩

  iapply (StableHlo.wp_seq 𝒱 none Set.univ d hostRefs _ opsA opsA_sub opsA_fresh (StableHlo.launchContents m d)) $$ [Hb Hheld]
  · iframe
  iintro ⟨Hb, Hheld⟩
  rw [wp_bind]

  have hcall : (held (d.tc : Thread nD τ) hostRefs (StableHlo.after opsA (StableHlo.launchContents m d)) : sProp 𝕄)
      ⊢ iprop(((gLoc d ↦{fullShare} G0 m d) ∗ (pLoc d ↦{fullShare} P0 m d) ∗ (rLoc d ↦{fullShare} m (rLoc d)) ∗ (cLoc d ↦{fullShare} m (cLoc d)))
          ∗ held (T d) (hostRefs \ callRefs) (VA m d)) := Entails.of_eq (held_call m d)
  ihave Hh := hcall $$ Hheld
  icases Hh with ⟨⟨Hg, Hp, Hr, Hc⟩, Hrest⟩
  ihave Hd := (deal m d) $$ [Hg Hp Hr Hc]
  · iframe
  icases Hd with ⟨Hst0, Hgd, Hpd⟩
  iapply ((K (F := F)).wp_run (D (F := F)) 𝒱 (EH := EH) (P := P m) κ d 0) $$ [Hst Hst0 Hb Hrest Hgd Hpd]
  isplitr; · iexact Hctx
  isplitl [Hst]; · iexact Hst
  isplitl [Hst0]; · iexact Hst0
  iintro ⟨Hst, Hdn⟩

  ihave Hw := (gather m d) $$ [Hdn Hgd Hpd]
  · iframe
  ihave Hheld := (Entails.of_eq (held_back m d)) $$ [Hw Hrest]
  · iframe

  iapply (StableHlo.wp_seq 𝒱 none Set.univ d hostRefs _ opsB opsB_sub opsB_fresh (VB m d)) $$ [Hb Hheld]
  · iframe
  iintro ⟨Hb, Hheld⟩
  rw [wp_pure]; imodintro
  isplitl [Hst]; · iexact Hst
  iapply (held_fin m d); iexact Hheld

def fq (d : Dev nD) (s' : Phys nD τ sig (Elt F)) : Prop :=
  s'.mem.mem ((SparseCore.T d).loc main_v10)
      = (hostTail (rowsOut (G0 m d) (P0 m d)) (colsOut (G0 m d) (P0 m d)) : (⟨S_, .f32⟩ : BufTy).Contents (Elt F))
    ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ho, Ha, Hb⟩, HSI⟩
  ihave H := (persistent_entails_right (SI_pointsTo_agree (st := s') (ℓ := (SparseCore.T d).loc main_v10) (I := Finset.univ) (q := fullShare)
      (f := (hostTail (rowsOut (G0 m d) (P0 m d)) (colsOut (G0 m d) (P0 m d)) : (⟨S_, .f32⟩ : BufTy).Contents (Elt F))))) $$ [HSI Ho]
  · isplitl [HSI] <;> iassumption
  icases H with ⟨%h0, HSI, -⟩
  ihave H := (persistent_entails_right (SI_pointsTo_agree (st := s') (ℓ := a0Loc d) (I := Finset.univ) (q := fullShare) (f := m (a0Loc d)))) $$ [HSI Ha]
  · isplitl [HSI] <;> iassumption
  icases H with ⟨%h1, HSI, -⟩
  ihave H := (SI_pointsTo_agree (st := s') (ℓ := a1Loc d) (I := Finset.univ) (q := fullShare) (f := m (a1Loc d))) $$ [HSI Hb]
  · isplitl [HSI] <;> iassumption
  icases H with %h2
  ipureintro
  exact ⟨funext fun i => h0 i (Finset.mem_univ i), funext fun i => h1 i (Finset.mem_univ i), funext fun i => h2 i (Finset.mem_univ i)⟩

/-- The launch: the tasks' correctness gives the run of the program and its result. -/
theorem run_main [∀ e, Nonempty (Elt F e)] (hb : TileBody (F := F) m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.ChamferBits

end
-- ==== Proof.Loss.lean ====
import Idealize.ShloMosaic.PureOps.Ideal
import Idealize.ShloMosaic.Lib.ValueIdx

noncomputable section

namespace Cert.Chamfer

open Idealize.ShloMosaic Idealize.ShloMosaic.ValueIdx

abbrev Cloud : Shape := ⟨3, ![16, 2048, 3]⟩

def sqd (g p : Cloud.Idx → EReal) (b : Fin 16) (n m : Fin 2048) : EReal :=
  ∑ k : Fin 3, (g (ix3 b n k) - p (ix3 b m k)) * (g (ix3 b n k) - p (ix3 b m k))

def toSecond (g p : Cloud.Idx → EReal) (b : Fin 16) (n : Fin 2048) : EReal :=
  Finset.univ.inf fun m : Fin 2048 => sqd g p b n m

def toFirst (g p : Cloud.Idx → EReal) (b : Fin 16) (m : Fin 2048) : EReal :=
  Finset.univ.inf fun n : Fin 2048 => sqd g p b n m

def loss (g p : Cloud.Idx → EReal) : EReal :=
  Ideal.div (∑ b : Fin 16, ∑ n : Fin 2048, toSecond g p b n) (Ideal.ofBits .f32 0x47000000#32)
    + Ideal.div (∑ b : Fin 16, ∑ m : Fin 2048, toFirst g p b m) (Ideal.ofBits .f32 0x47000000#32)

end Cert.Chamfer

end
-- ==== Proof.TileValue.lean ====
import Idealize.ShloMosaic.PureOps.Ideal
import Idealize.ShloMosaic.Lib.ValueIdx
import proofs.«204275_g83442624626996_cont_9to1c4b_244_10_alg».proof.Proof.Loss
import proofs.«204275_g83442624626996_cont_9to1c4b_244_10_alg».proof.Proof.TileSpec

noncomputable section

namespace Cert.Chamfer

open Idealize.ShloMosaic Idealize.ShloMosaic.ValueIdx

def batchOf (w : Fin 32) : Fin 16 := ⟨w.val / 2, by omega⟩
def pointOf (w : Fin 32) (r : Fin 1024) : Fin 2048 := ⟨(w.val % 2) * 1024 + r.val, by omega⟩

def toHalf (g p : Cloud.Idx → EReal) (w : Fin 32) (j : Fin 2048) : EReal :=
  Finset.univ.inf fun r : Fin 1024 => sqd g p (batchOf w) (pointOf w r) j

theorem posInf_top : (posInf (F := Ideal)) = (⊤ : EReal) := by
  simp [posInf, Ideal.ofBits, Ideal.ieee]

theorem minUpTo_eq (f : ℕ → EReal) (k : ℕ) :
    minUpTo (F := Ideal) f k = (Finset.range k).inf f := by
  induction k with
  | zero => simp [minUpTo, posInf_top]
  | succ k ih =>
    rw [minUpTo, ih, Finset.range_add_one, Finset.inf_insert, Ideal.minimumf_def]
    exact inf_comm _ _

theorem inf_range_eq_univ (n : ℕ) (f : ℕ → EReal) :
    (Finset.range n).inf f = Finset.univ.inf fun i : Fin n => f i.val := by
  apply le_antisymm
  · exact Finset.le_inf fun i _ => Finset.inf_le (Finset.mem_range.mpr i.isLt)
  · exact Finset.le_inf fun j hj =>
      Finset.inf_le (f := fun i : Fin n => f i.val)
        (Finset.mem_univ (⟨j, Finset.mem_range.mp hj⟩ : Fin n))

theorem tree16_eq (x : ℕ → EReal) : tree16 (F := Ideal) x = (Finset.range 16).inf x := by
  have hle : ∀ l, l < 16 → (Finset.range 16).inf x ≤ x l :=
    fun l hl => Finset.inf_le (Finset.mem_range.mpr hl)
  apply le_antisymm
  · refine Finset.le_inf fun l hl => ?_
    have hl' : l < 16 := Finset.mem_range.mp hl
    simp only [tree16, Ideal.minimumf_def]
    interval_cases l <;> simp [min_le_iff]
  · simp only [tree16, Ideal.minimumf_def]
    refine le_min (le_min (le_min (le_min ?_ ?_) (le_min ?_ ?_)) (le_min (le_min ?_ ?_) (le_min ?_ ?_)))
      (le_min (le_min (le_min ?_ ?_) (le_min ?_ ?_)) (le_min (le_min ?_ ?_) (le_min ?_ ?_))) <;>
      exact hle _ (by norm_num)

theorem inf_lanes (f : ℕ → EReal) :
    ((Finset.range 16).inf fun l => (Finset.range 128).inf fun c => f (16 * c + l))
      = (Finset.range 2048).inf f := by
  apply le_antisymm
  · refine Finset.le_inf fun j hj => ?_
    have hj' : j < 2048 := Finset.mem_range.mp hj
    have h1 : j % 16 ∈ Finset.range 16 := Finset.mem_range.mpr (Nat.mod_lt _ (by norm_num))
    have h2 : j / 16 ∈ Finset.range 128 := Finset.mem_range.mpr (by omega)
    have h3 : 16 * (j / 16) + j % 16 = j := Nat.div_add_mod j 16
    calc ((Finset.range 16).inf fun l => (Finset.range 128).inf fun c => f (16 * c + l))
        ≤ (Finset.range 128).inf fun c => f (16 * c + j % 16) :=
          Finset.inf_le (f := fun l => (Finset.range 128).inf fun c => f (16 * c + l)) h1
      _ ≤ f (16 * (j / 16) + j % 16) :=
          Finset.inf_le (f := fun c => f (16 * c + j % 16)) h2
      _ = f j := by rw [h3]
  · refine Finset.le_inf fun l hl => Finset.le_inf fun c hc => ?_
    have hl' : l < 16 := Finset.mem_range.mp hl
    have hc' : c < 128 := Finset.mem_range.mp hc
    exact Finset.inf_le (Finset.mem_range.mpr (by omega))

theorem sq_sub_comm (x y : EReal) (hx : x ≠ ⊤ ∧ x ≠ ⊥) (hy : y ≠ ⊤ ∧ y ≠ ⊥) :
    (y - x) * (y - x) = (x - y) * (x - y) := by
  lift x to ℝ using hx
  lift y to ℝ using hy
  rw [← EReal.coe_sub, ← EReal.coe_sub, ← EReal.coe_mul, ← EReal.coe_mul]
  congr 1
  ring

theorem tcIdx_eq (b : Fin 16) (k : Fin 3) (n : Fin 2048) : tcIdx b.val k.val n.val = ix3 b k n := by
  have hb : (⟨b.val % 16, Nat.mod_lt _ (by decide)⟩ : Fin 16) = b := Fin.ext (Nat.mod_eq_of_lt b.isLt)
  have hk : (⟨k.val % 3, Nat.mod_lt _ (by decide)⟩ : Fin 3) = k := Fin.ext (Nat.mod_eq_of_lt k.isLt)
  have hn : (⟨n.val % 2048, Nat.mod_lt _ (by decide)⟩ : Fin 2048) = n := Fin.ext (Nat.mod_eq_of_lt n.isLt)
  unfold tcIdx
  rw [hb, hk, hn]

variable (g p : Cloud.Idx → EReal) (G P : TCloud.Idx → EReal)

theorem dK_eq (hG : ∀ (b : Fin 16) (n : Fin 2048) (k : Fin 3), G (ix3 b k n) = g (ix3 b n k))
    (hP : ∀ (b : Fin 16) (n : Fin 2048) (k : Fin 3), P (ix3 b k n) = p (ix3 b n k))
    (hg : ∀ i, g i ≠ ⊤ ∧ g i ≠ ⊥) (hp : ∀ i, p i ≠ ⊤ ∧ p i ≠ ⊥) (b : Fin 16) (n j : Fin 2048) :
    dK (F := Ideal) G P b.val n.val j.val = sqd g p b n j := by
  have t0 : ∀ m : Fin 2048, tcIdx b.val 0 m.val = ix3 b (0 : Fin 3) m := fun m => tcIdx_eq b 0 m
  have t1 : ∀ m : Fin 2048, tcIdx b.val 1 m.val = ix3 b (1 : Fin 3) m := fun m => tcIdx_eq b 1 m
  have t2 : ∀ m : Fin 2048, tcIdx b.val 2 m.val = ix3 b (2 : Fin 3) m := fun m => tcIdx_eq b 2 m
  unfold dK sqK sqd
  rw [Fin.sum_univ_three]
  simp only [Ideal.addf_def, Ideal.subf_def, Ideal.mulf_def]
  rw [t0 n, t1 n, t2 n, t0 j, t1 j, t2 j, hG, hG, hG, hP, hP, hP,
    sq_sub_comm _ _ (hg (ix3 b n 0)) (hp (ix3 b j 0)),
    sq_sub_comm _ _ (hg (ix3 b n 1)) (hp (ix3 b j 1)),
    sq_sub_comm _ _ (hg (ix3 b n 2)) (hp (ix3 b j 2))]

/-- Over finite clouds the folded lane minima are the infimum over the whole second cloud. -/
theorem rowOut_eq (hG : ∀ (b : Fin 16) (n : Fin 2048) (k : Fin 3), G (ix3 b k n) = g (ix3 b n k))
    (hP : ∀ (b : Fin 16) (n : Fin 2048) (k : Fin 3), P (ix3 b k n) = p (ix3 b n k))
    (hg : ∀ i, g i ≠ ⊤ ∧ g i ≠ ⊥) (hp : ∀ i, p i ≠ ⊤ ∧ p i ≠ ⊥) (w : Fin 32) (r : Fin 1024) :
    rowOut (F := Ideal) G P w.val r.val = toSecond g p (batchOf w) (pointOf w r) := by
  unfold rowOut toSecond
  rw [tree16_eq]
  simp only [laneMin, minUpTo_eq]
  rw [inf_lanes (fun j => dK (F := Ideal) G P (w.val / 2) ((w.val % 2) * 1024 + r.val) j),
    inf_range_eq_univ]
  exact Finset.inf_congr rfl fun m _ => dK_eq g p G P hG hP hg hp (batchOf w) (pointOf w r) m

theorem colOut_eq (hG : ∀ (b : Fin 16) (n : Fin 2048) (k : Fin 3), G (ix3 b k n) = g (ix3 b n k))
    (hP : ∀ (b : Fin 16) (n : Fin 2048) (k : Fin 3), P (ix3 b k n) = p (ix3 b n k))
    (hg : ∀ i, g i ≠ ⊤ ∧ g i ≠ ⊥) (hp : ∀ i, p i ≠ ⊤ ∧ p i ≠ ⊥) (w : Fin 32) (j : Fin 2048) :
    colOut (F := Ideal) G P w.val j.val = toHalf g p w j := by
  unfold colOut toHalf
  rw [minUpTo_eq, inf_range_eq_univ]
  exact Finset.inf_congr rfl fun r _ => dK_eq g p G P hG hP hg hp (batchOf w) (pointOf w r) j

end Cert.Chamfer

end
-- ==== Proof.TailValue.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.IdealHost
import Idealize.ShloMosaic.Lib.Pipeline.Value
import Idealize.ShloMosaic.Lib.ReduceAll
import proofs.«204275_g83442624626996_cont_9to1c4b_244_10_alg».proof.Pre_finite_inputs
import proofs.«204275_g83442624626996_cont_9to1c4b_244_10_alg».proof.Proof.Gen.Pre_finite_inputs
import proofs.«204275_g83442624626996_cont_9to1c4b_244_10_alg».proof.Proof.HostTail
import proofs.«204275_g83442624626996_cont_9to1c4b_244_10_alg».proof.Proof.TileValue

noncomputable section

namespace Cert.Proof.ChamferIdeal

open Idealize.ShloMosaic Idealize.ShloMosaic.ValueIdx Cert.KernelIdeal Cert.KernelIdeal.Gen Cert.Chamfer

theorem inf_halves (f : Fin 2048 → EReal) :
    (Finset.univ.inf fun r : Fin 1024 => f ⟨r.val, by omega⟩)
        ⊓ (Finset.univ.inf fun r : Fin 1024 => f ⟨1024 + r.val, by omega⟩)
      = Finset.univ.inf f := by
  apply le_antisymm
  · refine Finset.le_inf fun n _ => ?_
    by_cases h : n.val < 1024
    · exact inf_le_left.trans
        (Finset.inf_le (f := fun r : Fin 1024 => f ⟨r.val, by omega⟩) (Finset.mem_univ (⟨n.val, h⟩ : Fin 1024)))
    · have e : (⟨1024 + (n.val - 1024), by omega⟩ : Fin 2048) = n := Fin.ext (by show 1024 + (n.val - 1024) = n.val; omega)
      have := Finset.inf_le (f := fun r : Fin 1024 => f ⟨1024 + r.val, by omega⟩)
        (Finset.mem_univ (⟨n.val - 1024, by omega⟩ : Fin 1024))
      exact inf_le_right.trans (this.trans (le_of_eq (congrArg f e)))
  · exact le_inf (Finset.le_inf fun r _ => Finset.inf_le (Finset.mem_univ _))
      (Finset.le_inf fun r _ => Finset.inf_le (Finset.mem_univ _))

theorem inf_fin2 (f : Fin 2 → EReal) : Finset.univ.inf f = f 0 ⊓ f 1 := by
  apply le_antisymm
  · exact le_inf (Finset.inf_le (Finset.mem_univ _)) (Finset.inf_le (Finset.mem_univ _))
  · refine Finset.le_inf fun k _ => ?_
    fin_cases k
    · exact inf_le_left
    · exact inf_le_right

theorem min_toHalf (g p : Cloud.Idx → EReal) (b : Fin 16) (m : Fin 2048) (w0 w1 : Fin 32)
    (h0 : w0.val = 2 * b.val) (h1 : w1.val = 2 * b.val + 1) :
    toHalf g p w0 m ⊓ toHalf g p w1 m = toFirst g p b m := by
  have hb0 : batchOf w0 = b := Fin.ext (by show w0.val / 2 = b.val; omega)
  have hb1 : batchOf w1 = b := Fin.ext (by show w1.val / 2 = b.val; omega)
  have hp0 : ∀ r : Fin 1024, pointOf w0 r = ⟨r.val, by omega⟩ :=
    fun r => Fin.ext (by show (w0.val % 2) * 1024 + r.val = r.val; omega)
  have hp1 : ∀ r : Fin 1024, pointOf w1 r = ⟨1024 + r.val, by omega⟩ :=
    fun r => Fin.ext (by show (w1.val % 2) * 1024 + r.val = 1024 + r.val; omega)
  unfold toHalf toFirst
  simp only [hb0, hb1, hp0, hp1]
  exact inf_halves fun n => sqd g p b n m

theorem reshape_rows_apply (rm : FVec Ideal S32x1024 .f32) (b : Fin 16) (n : Fin 2048) :
    shapeCast S16x2048 rm shapeCasts_S32x1024_S16x2048 (ix2 b n)
      = rm (ix2 (⟨2 * b.val + n.val / 1024, by omega⟩ : Fin 32) (⟨n.val % 1024, Nat.mod_lt _ (by decide)⟩ : Fin 1024)) :=
  shapeCast_apply rm _ _ _ (by
    rw [Shape.rowMajor_val_two, Shape.rowMajor_val_two]
    show (2 * b.val + n.val / 1024) * 1024 + n.val % 1024 = b.val * 2048 + n.val
    omega)

theorem reshape_cols_apply (cm : FVec Ideal S32x2048 .f32) (b : Fin 16) (k : Fin 2) (m : Fin 2048) :
    shapeCast S16x2x2048 cm shapeCasts_S32x2048_S16x2x2048 (ix3 b k m)
      = cm (ix2 (⟨2 * b.val + k.val, by omega⟩ : Fin 32) m) :=
  shapeCast_apply cm _ _ _ (by
    rw [Shape.rowMajor_val_two, Shape.rowMajor_val_three]
    show (2 * b.val + k.val) * 2048 + m.val = (b.val * 2 + k.val) * 2048 + m.val
    omega)

theorem lift_mid (h : S16x2x2048.Reduces [1] S16x2048) (b : Fin 16) (m : Fin 2048) (k : Fin (S16x2x2048.size 1)) :
    h.lift (ix2 b m) k = ix3 b (⟨k.val, k.isLt⟩ : Fin 2) m := by
  funext c; apply Fin.ext
  fin_cases c <;> rfl

theorem ofBits_inf : Ideal.ofBits .f32 0x7F800000#32 = (⊤ : EReal) := by simp [Ideal.ofBits, Ideal.ieee]

theorem fold_min_two {n : Nat} (hn : n = 2) (f : Fin n → EReal) :
    (Finset.univ : Finset (Fin n)).fold (FloatOps.minimumf (F := Ideal) (φ := .f32)) (⊤ : EReal) f
      = f ⟨0, by omega⟩ ⊓ f ⟨1, by omega⟩ := by
  subst hn
  exact inf_fin2 f

theorem colmin_apply (cm : FVec Ideal S32x2048 .f32) (b : Fin 16) (m : Fin 2048) :
    Host.reduce FloatOps.minimumf (shapeCast S16x2x2048 cm shapeCasts_S32x2048_S16x2x2048)
        (constant (F := Ideal) S_ .f32 0x7F800000#32) reducesTo_S16x2x2048_S16x2048_d1 h_S_ (ix2 b m)
      = cm (ix2 (⟨2 * b.val + 0, by omega⟩ : Fin 32) m) ⊓ cm (ix2 (⟨2 * b.val + 1, by omega⟩ : Fin 32) m) := by
  have h : S16x2x2048.Reduces [1] S16x2048 := by decide
  rw [Host.reduce_eq_fold_single FloatOps.minimumf _ _ reducesTo_S16x2x2048_S16x2048_d1 h h_S_, constant_apply, ofBits_inf]
  rw [fold_min_two (n := S16x2x2048.size 1) rfl]
  simp only [Function.comp_apply]
  rw [lift_mid, lift_mid, reshape_cols_apply, reshape_cols_apply]

theorem total_sum (x : FVec Ideal S16x2048 .f32) (i : S_.Idx) :
    Host.reduceAdd x (constant (F := Ideal) S_ .f32 0x00000000#32) reducesTo_S16x2048_S_d0_1 h_S_ i
      = ∑ b : Fin 16, ∑ n : Fin 2048, x (ix2 b n) := by
  rw [hostReduceAdd_apply, Ideal.hostReduceAdd_total _ (fun b => b.elim0), constant_apply, Ideal.ofBits_zero_f32,
    zero_add, sum_idx2]

theorem tail_loss (g p : Cloud.Idx → EReal) (rm : FVec Ideal S32x1024 .f32) (cm : FVec Ideal S32x2048 .f32)
    (hrm : ∀ (w : Fin 32) (r : Fin 1024), rm (ix2 w r) = toSecond g p (batchOf w) (pointOf w r))
    (hcm : ∀ (w : Fin 32) (j : Fin 2048), cm (ix2 w j) = toHalf g p w j) :
    hostTail (F := Ideal) rm cm = fun _ => loss g p := by
  funext i
  have h1 : ∀ (b : Fin 16) (n : Fin 2048),
      shapeCast S16x2048 rm shapeCasts_S32x1024_S16x2048 (ix2 b n) = toSecond g p b n := by
    intro b n
    rw [reshape_rows_apply, hrm]
    congr 1
    · exact Fin.ext (by show (2 * b.val + n.val / 1024) / 2 = b.val; omega)
    · exact Fin.ext (by show ((2 * b.val + n.val / 1024) % 2) * 1024 + n.val % 1024 = n.val; omega)
  have h2 : ∀ (b : Fin 16) (m : Fin 2048),
      Host.reduce FloatOps.minimumf (shapeCast S16x2x2048 cm shapeCasts_S32x2048_S16x2x2048)
        (constant (F := Ideal) S_ .f32 0x7F800000#32) reducesTo_S16x2x2048_S16x2048_d1 h_S_ (ix2 b m) = toFirst g p b m := by
    intro b m
    rw [colmin_apply, hcm, hcm]
    exact min_toHalf g p b m _ _ rfl rfl
  unfold hostTail loss
  rw [addf_apply, hostDivf_apply, hostDivf_apply, total_sum, total_sum, constant_apply]
  simp only [h1, h2]

instance : Subsingleton Cert.Pre_finite_inputs.S_.Idx := ⟨fun a b => funext fun d => d.elim0⟩

theorem real_of_abs_lt_inf (x : EReal)
    (h : FloatOps.cmpf (F := Ideal) (φ := .f32) .olt (FloatOps.hostAbsf x) (Ideal.ofBits .f32 0x7F800000#32) = 1#1) :
    x ≠ ⊤ ∧ x ≠ ⊥ := by
  induction x using EReal.rec with
  | bot => exfalso; revert h; simp [ofBits_inf, FloatOps.cmpf, FloatOps.hostAbsf, FloatOps.absf, Ideal.cmp]
  | coe r => exact ⟨EReal.coe_ne_top r, EReal.coe_ne_bot r⟩
  | top => exfalso; revert h; simp [ofBits_inf, FloatOps.cmpf, FloatOps.hostAbsf, FloatOps.absf, Ideal.cmp]

theorem finite_of_pre (a0 a1 : FVec Ideal S16x2048x3 .f32)
    (hpre : Cert.Pre_finite_inputs.fn (F := Ideal) a0 a1 = fun _ => 1#1) :
    (∀ i, a0 i ≠ ⊤ ∧ a0 i ≠ ⊥) ∧ (∀ i, a1 i ≠ ⊤ ∧ a1 i ≠ ⊥) := by
  have h0 := congrFun hpre ix0
  dsimp only [Cert.Pre_finite_inputs.fn] at h0
  obtain ⟨ha, hb⟩ := IntOp.andi_eq_one.1 h0
  exact ⟨fun i => real_of_abs_lt_inf _ (Host.reduce_andi_all _ _ _ _ _ ha i),
    fun i => real_of_abs_lt_inf _ (Host.reduce_andi_all _ _ _ _ _ hb i)⟩

/-- With finite clouds the two means of the subcores' minima add up to the chamfer loss. -/
theorem kernel_value (a0 a1 : FVec Ideal S16x2048x3 .f32)
    (hpre : Cert.Pre_finite_inputs.fn (F := Ideal) a0 a1 = fun _ => 1#1) :
    hostTail (F := Ideal)
        (rowsOut (F := Ideal) (transpose S16x3x2048 [0, 2, 1] a0 transposes_S16x2048x3_S16x3x2048_0_2_1)
          (transpose S16x3x2048 [0, 2, 1] a1 transposes_S16x2048x3_S16x3x2048_0_2_1))
        (colsOut (F := Ideal) (transpose S16x3x2048 [0, 2, 1] a0 transposes_S16x2048x3_S16x3x2048_0_2_1)
          (transpose S16x3x2048 [0, 2, 1] a1 transposes_S16x2048x3_S16x3x2048_0_2_1))
      = fun _ => loss a0 a1 := by
  obtain ⟨hg, hp⟩ := finite_of_pre a0 a1 hpre
  have hG : ∀ (b : Fin 16) (n : Fin 2048) (k : Fin 3),
      transpose S16x3x2048 [0, 2, 1] a0 transposes_S16x2048x3_S16x3x2048_0_2_1 (ix3 b k n) = a0 (ix3 b n k) :=
    fun b n k => transpose_ix3_021_apply a0 _ b k n
  have hP : ∀ (b : Fin 16) (n : Fin 2048) (k : Fin 3),
      transpose S16x3x2048 [0, 2, 1] a1 transposes_S16x2048x3_S16x3x2048_0_2_1 (ix3 b k n) = a1 (ix3 b n k) :=
    fun b n k => transpose_ix3_021_apply a1 _ b k n
  refine tail_loss a0 a1 _ _ (fun w r => ?_) (fun w j => ?_)
  · exact rowOut_eq a0 a1 _ _ hG hP hg hp w r
  · exact colOut_eq a0 a1 _ _ hG hP hg hp w j

end Cert.Proof.ChamferIdeal

end
-- ==== Proof.RefLoss.lean ====
import proofs.«204275_g83442624626996_cont_9to1c4b_244_10_alg».proof.ReferenceIdeal
import proofs.«204275_g83442624626996_cont_9to1c4b_244_10_alg».proof.Proof.Gen.ReferenceIdeal
import proofs.«204275_g83442624626996_cont_9to1c4b_244_10_alg».proof.Proof.Gen.ReferenceIdeal.Run
import proofs.«204275_g83442624626996_cont_9to1c4b_244_10_alg».proof.Proof.Gen.ReferenceIdeal.Read
import proofs.«204275_g83442624626996_cont_9to1c4b_244_10_alg».proof.Proof.Loss

noncomputable section

namespace Cert.Chamfer.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

abbrev Arg : Type := (⟨S16x2048x3, .f32⟩ : BufTy).Contents (Elt Ideal)

theorem sqTable_apply (a0 a1 : Arg) (b : Fin 16) (n m : Fin 2048) :
    val_main_v6 (F := Ideal) a0 a1 (ix3 b n m) = sqd a0 a1 b n m := by
  rw [val_main_v6_apply]
  have e0 : ∀ k : Fin 3, idx_main_v0 (idx_main_v2 (idx_main_v6 (ix3 b n m) k)) = ix3 b n k := fun k =>
    funext fun a => Fin.ext (by match a with | ⟨0, _⟩ => rfl | ⟨1, _⟩ => rfl | ⟨2, _⟩ => rfl)
  have e1 : ∀ k : Fin 3, idx_main_v1 (idx_main_v3 (idx_main_v6 (ix3 b n m) k)) = ix3 b m k := fun k =>
    funext fun a => Fin.ext (by match a with | ⟨0, _⟩ => rfl | ⟨1, _⟩ => rfl | ⟨2, _⟩ => rfl)
  simp only [val_main_v5_apply, val_main_v4_apply, val_main_v2_apply, val_main_v3_apply, val_main_v0_apply,
    val_main_v1_apply, val_main_cst_apply, e0, e1, Ideal.ofBits_def, Ideal.ofBits_zero_f32, Ideal.subf_def,
    Ideal.mulf_def, zero_add]
  rfl

theorem posInf_eq_top : Ideal.ofBits .f32 0x7F800000#32 = (⊤ : EReal) := by simp [Ideal.ofBits, Ideal.ieee]

theorem fold_min_top (f : Fin 2048 → EReal) :
    (Finset.univ : Finset (Fin 2048)).fold (FloatOps.minimumf (F := Ideal) (φ := .f32)) (⊤ : EReal) f
      = Finset.univ.inf f := rfl

theorem lift_axis2 (h : S16x2048x2048.Reduces [2] S16x2048) (b : Fin 16) (n : Fin 2048)
    (k : Fin (S16x2048x2048.size 2)) : h.lift (ix2 b n) k = ix3 b n (⟨k.val, k.isLt⟩ : Fin 2048) := by
  funext c; apply Fin.ext
  fin_cases c <;> rfl

theorem lift_axis1 (h : S16x2048x2048.Reduces [1] S16x2048) (b : Fin 16) (m : Fin 2048)
    (k : Fin (S16x2048x2048.size 1)) : h.lift (ix2 b m) k = ix3 b (⟨k.val, k.isLt⟩ : Fin 2048) m := by
  funext c; apply Fin.ext
  fin_cases c <;> rfl

theorem minOverSecond_apply (a0 a1 : Arg) (b : Fin 16) (n : Fin 2048) :
    val_main_v7 (F := Ideal) a0 a1 (ix2 b n) = toSecond a0 a1 b n := by
  have h : S16x2048x2048.Reduces [2] S16x2048 := by decide
  unfold val_main_v7
  rw [Host.reduce_eq_fold_single FloatOps.minimumf _ _ reducesTo_S16x2048x2048_S16x2048_d2 h h_S_]
  have hf : (val_main_v6 (F := Ideal) a0 a1 ∘ h.lift (ix2 b n)) = fun m : Fin 2048 => sqd a0 a1 b n m :=
    funext fun k => (congrArg (val_main_v6 (F := Ideal) a0 a1) (lift_axis2 h b n k)).trans (sqTable_apply a0 a1 b n _)
  rw [hf, val_main_cst_0_apply, Ideal.ofBits_def, posInf_eq_top]
  exact fold_min_top _

theorem minOverFirst_apply (a0 a1 : Arg) (b : Fin 16) (m : Fin 2048) :
    val_main_v8 (F := Ideal) a0 a1 (ix2 b m) = toFirst a0 a1 b m := by
  have h : S16x2048x2048.Reduces [1] S16x2048 := by decide
  unfold val_main_v8
  rw [Host.reduce_eq_fold_single FloatOps.minimumf _ _ reducesTo_S16x2048x2048_S16x2048_d1 h h_S_]
  have hf : (val_main_v6 (F := Ideal) a0 a1 ∘ h.lift (ix2 b m)) = fun n : Fin 2048 => sqd a0 a1 b n m :=
    funext fun k => (congrArg (val_main_v6 (F := Ideal) a0 a1) (lift_axis1 h b m k)).trans (sqTable_apply a0 a1 b _ m)
  rw [hf, val_main_cst_1_apply, Ideal.ofBits_def, posInf_eq_top]
  exact fold_min_top _

theorem result_eq_loss (a0 a1 : Arg) : val_main_v13 (F := Ideal) a0 a1 = fun _ => loss a0 a1 := by
  funext i
  rw [val_main_v13_apply, val_main_v10_apply, val_main_v12_apply, val_main_v9_apply, val_main_v11_apply,
    sum_idx2, sum_idx2]
  simp only [minOverSecond_apply, minOverFirst_apply, val_main_cst_2_apply, val_main_cst_4_apply,
    val_main_cst_3_apply, val_main_cst_5_apply, Ideal.ofBits_def, Ideal.ofBits_zero_f32, zero_add,
    Ideal.addf_def, Ideal.hostDivf_def]
  rfl

theorem run_loss (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v13)
          = (fun _ => Cert.Chamfer.loss (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun r h c => ⟨(h c).1.trans ((val_main_v13_eq (F := Ideal) _ _).trans (result_eq_loss _ _)), (h c).2⟩)
    (Cert.ReferenceIdeal.Value.run (F := Ideal) m' ρ')

end Cert.Chamfer.Ref

end
-- ==== Proof.lean ====
import proofs.«204275_g83442624626996_cont_9to1c4b_244_10_alg».proof.Defs
import proofs.«204275_g83442624626996_cont_9to1c4b_244_10_alg».proof.Proof.Gen.Kernel
import proofs.«204275_g83442624626996_cont_9to1c4b_244_10_alg».proof.Proof.Gen.Kernel.Skeleton
import proofs.«204275_g83442624626996_cont_9to1c4b_244_10_alg».proof.Proof.Gen.KernelIdeal
import proofs.«204275_g83442624626996_cont_9to1c4b_244_10_alg».proof.Proof.Gen.KernelIdeal.Skeleton
import proofs.«204275_g83442624626996_cont_9to1c4b_244_10_alg».proof.Proof.Gen.ReferenceIdeal
import proofs.«204275_g83442624626996_cont_9to1c4b_244_10_alg».proof.Proof.Gen.Pre_finite_inputs
import Idealize.ShloMosaic.Adequacy
import Idealize.ShloMosaic.Init
import proofs.«204275_g83442624626996_cont_9to1c4b_244_10_alg».proof.Proof.TileBody
import proofs.«204275_g83442624626996_cont_9to1c4b_244_10_alg».proof.Proof.Launch
import proofs.«204275_g83442624626996_cont_9to1c4b_244_10_alg».proof.Proof.Bits.TileBody
import proofs.«204275_g83442624626996_cont_9to1c4b_244_10_alg».proof.Proof.Bits.Launch
import proofs.«204275_g83442624626996_cont_9to1c4b_244_10_alg».proof.Proof.TailValue
import proofs.«204275_g83442624626996_cont_9to1c4b_244_10_alg».proof.Proof.RefLoss

noncomputable section

namespace Cert.Proof

open Idealize.ShloMosaic Idealize.SL.Sem

theorem frame_k : Cert.frame_Kernel := fun m ρ _ =>
  (θ_run Cert.Kernel.defs _ _).mono (fun _ h c => (h c).2)
    (ChamferBits.run_main (F := Bits) m ρ (ChamferBits.tile_body (F := Bits) m))

theorem frame_ki : Cert.frame_KernelIdeal := fun m ρ _ =>
  (θ_run Cert.KernelIdeal.defs _ _).mono (fun _ h c => (h c).2)
    (ChamferIdeal.run_main (F := Ideal) m ρ (ChamferIdeal.tile_body (F := Ideal) m))

theorem frame_ri : Cert.frame_ReferenceIdeal := fun m ρ _ =>
  (θ_run Cert.ReferenceIdeal.defs _ _).mono (fun _ h c => (h c).2) (Cert.Chamfer.Ref.run_loss m ρ)

/-- Under the finiteness precondition the kernel's result and the reference's are one number, the chamfer loss. -/
theorem algebraic : Cert.algebraic_KernelIdeal_ReferenceIdeal := by
  intro m ρ m' ρ' hpre hagree
  refine ⟨fun c => fun _ => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (ChamferIdeal.run_main (F := Ideal) m ρ (ChamferIdeal.tile_body (F := Ideal) m))
    exact ChamferIdeal.kernel_value _ _ (hpre c)
  · refine (θ_run Cert.ReferenceIdeal.defs _ _).mono (fun r h c => ⟨?_, (h c).2⟩) (Cert.Chamfer.Ref.run_loss m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
